-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3 : Shape := ⟨2, ![256, 3]⟩
abbrev S1024x3 : Shape := ⟨2, ![1024, 3]⟩
abbrev S1024 : Shape := ⟨1, ![1024]⟩
abbrev S2x1024x1024 : Shape := ⟨3, ![2, 1024, 1024]⟩
abbrev S2x1024 : Shape := ⟨2, ![2, 1024]⟩
abbrev S1x1024 : Shape := ⟨2, ![1, 1024]⟩
abbrev S1 : Shape := ⟨1, ![1]⟩
abbrev S_ : Shape := ⟨0, ![]⟩

class Facts : Prop where
  bcast_S_S256x3 : S_.BroadcastsInDim S256x3 (![] : Fin 0 → Fin S256x3.rank)
  reducesTo_S256x3_S_d0_1 : S256x3.ReducesTo [0, 1] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S1024 : S_.BroadcastsInDim S1024 (![] : Fin 0 → Fin S1024.rank)
  reducesTo_S1024_S_d0 : S1024.ReducesTo [0] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S2x1024 .f32) (main_arg5 : FVec F S1x1024 .f32) (main_arg6 : FVec F S1 .f32) (main_v13 : IVec S_ 1) (main_v16 : IVec S2x1024x1024 1) : IVec S_ 1 :=
  let main_c_5 : IVec S_ 1 := constantI S_ 1 1#1
  let main_v17 : IVec S_ 1 := (fun x v => Host.reduce IntOp.andi x v reducesTo_S2x1024x1024_S_d0_1_2 h_S_) main_v16 main_c_5
  let main_v18 : IVec S_ 1 := andi main_v13 main_v17
  let main_v19 : FVec F S2x1024 .f32 := Host.absf main_arg4
  let main_cst_6 : FVec F S_ .f32 := constant S_ .f32 0x7F800000#32
  let main_v20 : FVec F S2x1024 .f32 := broadcastInDim S2x1024 ![] bcast_S_S2x1024 main_cst_6
  let main_v21 : IVec S2x1024 1 := cmpf .olt main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S256x3 .f32) (main_arg1 : FVec F S1024x3 .f32) (main_arg2 : FVec F S1024 .f32) (main_arg3 : FVec F S2x1024x1024 .f32) (main_arg4 : FVec F S2x1024 .f32) (main_arg5 : FVec F S1x1024 .f32) (main_arg6 : FVec F S1 .f32) : IVec S_ 1 :=
  let main_v0 : FVec F S256x3 .f32 := Host.absf main_arg0
  let main_cst : FVec F S_ .f32 := constant S_ .f32 0x7F800000#32
  let main_v1 : FVec F S256x3 .f32 := broadcastInDim S256x3 ![] bcast_S_S256x3 main_cst
  let main_v2 : IVec S256x3 1 := cmpf .olt main_v0 main_v1
  let main_c : IVec S_ 1 := constantI S_ 1 1#1
  let main_v3 : IVec S_ 1 := (fun x v => Host.reduce IntOp.andi x v reducesTo_S256x3_S_d0_1 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2x1024x1024 .f32 := Host.absf main_arg3
  let main_cst_4 : FVec F S_ .f32 := constant S_ .f32 0x7F800000#32
  let main_v15 : FVec F S2x1024x1024 .f32 := broadcastInDim S2x1024x1024 ![] bcast_S_S2x1024x1024 main_cst_4
  let main_v16 : IVec S2x1024x1024 1 := cmpf .olt main_v14 main_v15
  fn_part1 (F := F) main_arg4 main_arg5 main_arg6 main_v13 main_v16
-- ==== Kernel.lean ====
abbrev S256x3 : Shape := ⟨2, ![256, 3]⟩
abbrev S1024x3 : Shape := ⟨2, ![1024, 3]⟩
abbrev S1024 : Shape := ⟨1, ![1024]⟩
abbrev S2x1024x1024 : Shape := ⟨3, ![2, 1024, 1024]⟩
abbrev S2x1024 : Shape := ⟨2, ![2, 1024]⟩
abbrev S1x1024 : Shape := ⟨2, ![1, 1024]⟩
abbrev S1 : Shape := ⟨1, ![1]⟩
abbrev S256x1024 : Shape := ⟨2, ![256, 1024]⟩
abbrev S128x3 : Shape := ⟨2, ![128, 3]⟩
abbrev S1x128 : Shape := ⟨2, ![1, 128]⟩
abbrev S256x128 : Shape := ⟨2, ![256, 128]⟩
abbrev S1x128x3 : Shape := ⟨3, ![1, 128, 3]⟩
abbrev S256x1x3 : Shape := ⟨3, ![256, 1, 3]⟩
abbrev S256x128x3 : Shape := ⟨3, ![256, 128, 3]⟩
abbrev S1x1024x1024 : Shape := ⟨3, ![1, 1024, 1024]⟩
abbrev S1024x1024 : Shape := ⟨2, ![1024, 1024]⟩
abbrev S128x128 : Shape := ⟨2, ![128, 128]⟩
abbrev S1x128x128 : Shape := ⟨3, ![1, 128, 128]⟩
abbrev S256x1x128 : Shape := ⟨3, ![256, 1, 128]⟩
abbrev S256x128x128 : Shape := ⟨3, ![256, 128, 128]⟩
abbrev S1x1 : Shape := ⟨2, ![1, 1]⟩
abbrev S256x1 : Shape := ⟨2, ![256, 1]⟩
abbrev S1x1x128 : Shape := ⟨3, ![1, 1, 128]⟩
abbrev S256 : Shape := ⟨1, ![256]⟩

abbrev nBuf : Space → Nat
  | .hbm => 24
  | .vmem => 33
  | .smem => 0
  | _ => 0

abbrev bufTy : (tb : Table) → Fin (tcTables nBuf tb) → BufTy
  | .hbm, ⟨0, _⟩ => ⟨S256x3, .f32⟩
  | .hbm, ⟨1, _⟩ => ⟨S1024x3, .f32⟩
  | .hbm, ⟨2, _⟩ => ⟨S1024, .f32⟩
  | .hbm, ⟨3, _⟩ => ⟨S2x1024x1024, .f32⟩
  | .hbm, ⟨4, _⟩ => ⟨S2x1024, .f32⟩
  | .hbm, ⟨5, _⟩ => ⟨S1x1024, .f32⟩
  | .hbm, ⟨6, _⟩ => ⟨S1, .f32⟩
  | .hbm, ⟨7, _⟩ => ⟨S1x1024, .f32⟩
  | .hbm, ⟨8, _⟩ => ⟨S256x1024, .f32⟩
  | .hbm, ⟨9, _⟩ => ⟨S1x1024x1024, .f32⟩
  | .hbm, ⟨10, _⟩ => ⟨S1024x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S256x1024, .f32⟩
  | .hbm, ⟨15, _⟩ => ⟨S1x1024x1024, .f32⟩
  | .hbm, ⟨16, _⟩ => ⟨S1024x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S256x1024, .f32⟩
  | .hbm, ⟨21, _⟩ => ⟨S1x1, .f32⟩
  | .hbm, ⟨22, _⟩ => ⟨S256x1, .f32⟩
  | .hbm, ⟨23, _⟩ => ⟨S256, .f32⟩
  | .local _ .vmem, ⟨0, _⟩ => ⟨S256x3, .f32⟩
  | .local _ .vmem, ⟨1, _⟩ => ⟨S128x3, .f32⟩
  | .local _ .vmem, ⟨2, _⟩ => ⟨S128x3, .f32⟩
  | .local _ .vmem, ⟨3, _⟩ => ⟨S1x128, .f32⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S1x128, .f32⟩
  | .local _ .vmem, ⟨29, _⟩ => ⟨S1x128, .f32⟩
  | .local _ .vmem, ⟨30, _⟩ => ⟨S1x1, .f32⟩
  | .local _ .vmem, ⟨31, _⟩ => ⟨S256x1, .f32⟩
  | .local _ .vmem, ⟨32, _⟩ => ⟨S256x1, .f32⟩
  | _, _ => ⟨S256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_scratch0 : Ref sig .tc := ⟨.vmem, 32, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v16 : BitVec 1 := Scalar.cmpi .eq arg1 c0_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_8 : BitVec 32 := 0#32
  let v20 : BitVec 1 := Scalar.cmpi .ne v19 c0_i32_8
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_8 : BitVec 32 := 0#32
  let v20 : BitVec 1 := Scalar.cmpi .ne v19 c0_i32_8
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![1, 8], ![false, false]⟩

def k3_cond2 (i : grid3.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_8 : BitVec 32 := 0#32
  let v18 : BitVec 1 := Scalar.cmpi .ne v17 c0_i32_8
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false]

class Facts₀ : Prop where
  shapeCasts_S1024_S1x1024 : S1024.ShapeCasts S1x1024
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x3_S256x3_0_0 : ∀ a, (![0, 0] : Fin 2 → Nat) a + S256x3.size a ≤ S256x3.size a
  h_S256x3 : 0 < S256x3.numel
  inb_S128x3_S128x3_0_0 : ∀ a, (![0, 0] : Fin 2 → Nat) a + S128x3.size a ≤ S128x3.size a
  h_S128x3 : 0 < S128x3.numel
  shapeCasts_S128x3_S1x128x3 : S128x3.ShapeCasts S1x128x3
  shapeCasts_S256x3_S256x1x3 : S256x3.ShapeCasts S256x1x3
  broadcasts_S1x128x3_S256x128x3 : S1x128x3.Broadcasts S256x128x3
  broadcasts_S256x1x3_S256x128x3 : S256x1x3.Broadcasts S256x128x3
  reduces_S256x128x3_S256x128 : S256x128x3.Reduces [2] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  slices_S2x1024x1024_S1x1024x1024_0_0_0 : S2x1024x1024.Slices ![0, 0, 0] S1x1024x1024
  shapeCasts_S1x1024x1024_S1024x1024 : S1x1024x1024.ShapeCasts S1024x1024
  slices_S2x1024_S1x1024_0_0 : S2x1024.Slices ![0, 0] S1x1024
  shapeCasts_S1x1024_S1024 : S1x1024.ShapeCasts S1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  shapeCasts_S256x128_S256x1x128 : S256x128.ShapeCasts S256x1x128
  broadcasts_S1x128x128_S256x128x128 : S1x128x128.Broadcasts S256x128x128
  broadcasts_S256x1x128_S256x128x128 : S256x1x128.Broadcasts S256x128x128
  reduces_S256x128x128_S256x128 : S256x128x128.Reduces [2] S256x128
  slices_S2x1024x1024_S1x1024x1024_1_0_0 : S2x1024x1024.Slices ![1, 0, 0] S1x1024x1024
  slices_S2x1024_S1x1024_1_0 : S2x1024.Slices ![1, 0] S1x1024
  shapeCasts_S1_S1x1 : S1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S1x128_S1x1x128 : S1x128.ShapeCasts S1x1x128
  broadcasts_S1x1x128_S256x1x128 : S1x1x128.Broadcasts S256x1x128
  reduces_S256x1x128_S256x1 : S256x1x128.Reduces [2] S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  shapeCasts_S256x1_S256 : S256x1.ShapeCasts S256
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S256x3.size a
  hwx0_0 : ∀ i : grid0.Coords, EltTy.bits .f32 = 32 ∨ (Rect.block (s := S256x3) S256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S1024x3.size a
  hwx0_1 : ∀ i : grid0.Coords, EltTy.bits .f32 = 32 ∨ (Rect.block (s := S1024x3) S128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x1024.size a
  hwx0_3 : ∀ i : grid0.Coords, EltTy.bits .f32 = 32 ∨ (Rect.block (s := S256x1024) S256x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S256x1024.size a
  hwx1_0 : ∀ i : grid1.Coords, EltTy.bits .f32 = 32 ∨ (Rect.block (s := S256x1024) S256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S1024x1024.size a
  hwx1_1 : ∀ i : grid1.Coords, EltTy.bits .f32 = 32 ∨ (Rect.block (s := S1024x1024) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x1024.size a
  hwx1_2 : ∀ i : grid1.Coords, EltTy.bits .f32 = 32 ∨ (Rect.block (s := S1x1024) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x1024.size a
  hwx1_3 : ∀ i : grid1.Coords, EltTy.bits .f32 = 32 ∨ (Rect.block (s := S256x1024) S256x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x1024.size a
  hwx2_0 : ∀ i : grid2.Coords, EltTy.bits .f32 = 32 ∨ (Rect.block (s := S256x1024) S256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S1024x1024.size a
  hwx2_1 : ∀ i : grid2.Coords, EltTy.bits .f32 = 32 ∨ (Rect.block (s := S1024x1024) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x1024.size a
  hwx2_2 : ∀ i : grid2.Coords, EltTy.bits .f32 = 32 ∨ (Rect.block (s := S1x1024) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x1024.size a
  hwx2_3 : ∀ i : grid2.Coords, EltTy.bits .f32 = 32 ∨ (Rect.block (s := S256x1024) S256x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x1024.size a
  hwx3_0 : ∀ i : grid3.Coords, EltTy.bits .f32 = 32 ∨ (Rect.block (s := S256x1024) S256x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x1024.size a
  hwx3_1 : ∀ i : grid3.Coords, EltTy.bits .f32 = 32 ∨ (Rect.block (s := S1x1024) S1x128.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S256x1.size a
  hwx3_3 : ∀ i : grid3.Coords, EltTy.bits .f32 = 32 ∨ (Rect.block (s := S256x1) S256x1.size (cc3_transform_3 i) (hinb3_3 i)).WholeWords (EltTy.packing .f32)

variable [Facts₀]

abbrev win0_0 : Pipeline.Window sig grid0 :=
  Pipeline.Window.ofSpec (Memref.whole main_arg0) S256x3.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v7) S256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S256x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v13) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S1x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x1.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S256x1.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S256x3 : Shape := ⟨2, ![256, 3]⟩
abbrev S1024x3 : Shape := ⟨2, ![1024, 3]⟩
abbrev S1024 : Shape := ⟨1, ![1024]⟩
abbrev S2x1024x1024 : Shape := ⟨3, ![2, 1024, 1024]⟩
abbrev S2x1024 : Shape := ⟨2, ![2, 1024]⟩
abbrev S1x1024 : Shape := ⟨2, ![1, 1024]⟩
abbrev S1 : Shape := ⟨1, ![1]⟩
abbrev S1x1024x3 : Shape := ⟨3, ![1, 1024, 3]⟩
abbrev S256x1x3 : Shape := ⟨3, ![256, 1, 3]⟩
abbrev S256x1024x3 : Shape := ⟨3, ![256, 1024, 3]⟩
abbrev S_ : Shape := ⟨0, ![]⟩
abbrev S256x1024 : Shape := ⟨2, ![256, 1024]⟩
abbrev S1x1024x1024 : Shape := ⟨3, ![1, 1024, 1024]⟩
abbrev S1024x1024 : Shape := ⟨2, ![1024, 1024]⟩
abbrev S256x1x1024 : Shape := ⟨3, ![256, 1, 1024]⟩
abbrev S256x1024x1024 : Shape := ⟨3, ![256, 1024, 1024]⟩
abbrev S1x1x1024 : Shape := ⟨3, ![1, 1, 1024]⟩
abbrev S256x1 : Shape := ⟨2, ![256, 1]⟩
abbrev S1x1 : Shape := ⟨2, ![1, 1]⟩
abbrev S256 : Shape := ⟨1, ![256]⟩

abbrev nBuf : Space → Nat
  | .hbm => 55
  | .vmem => 0
  | .smem => 0
  | _ => 0

abbrev bufTy : (tb : Table) → Fin (tcTables nBuf tb) → BufTy
  | .hbm, ⟨0, _⟩ => ⟨S256x3, .f32⟩
  | .hbm, ⟨1, _⟩ => ⟨S1024x3, .f32⟩
  | .hbm, ⟨2, _⟩ => ⟨S1024, .f32⟩
  | .hbm, ⟨3, _⟩ => ⟨S2x1024x1024, .f32⟩
  | .hbm, ⟨4, _⟩ => ⟨S2x1024, .f32⟩
  | .hbm, ⟨5, _⟩ => ⟨S1x1024, .f32⟩
  | .hbm, ⟨6, _⟩ => ⟨S1, .f32⟩
  | .hbm, ⟨7, _⟩ => ⟨S1x1024x3, .f32⟩
  | .hbm, ⟨8, _⟩ => ⟨S256x1x3, .f32⟩
  | .hbm, ⟨9, _⟩ => ⟨S256x1024x3, .f32⟩
  | .hbm, ⟨10, _⟩ => ⟨S256x1024x3, .f32⟩
  | .hbm, ⟨11, _⟩ => ⟨S256x1024x3, .f32⟩
  | .hbm, ⟨12, _⟩ => ⟨S_, .f32⟩
  | .hbm, ⟨13, _⟩ => ⟨S256x1024, .f32⟩
  | .hbm, ⟨14, _⟩ => ⟨S1x1024, .f32⟩
  | .hbm, ⟨15, _⟩ => ⟨S256x1024, .f32⟩
  | .hbm, ⟨16, _⟩ => ⟨S256x1024, .f32⟩
  | .hbm, ⟨17, _⟩ => ⟨S1x1024x1024, .f32⟩
  | .hbm, ⟨18, _⟩ => ⟨S1024x1024, .f32⟩
  | .hbm, ⟨19, _⟩ => ⟨S1x1024, .f32⟩
  | .hbm, ⟨20, _⟩ => ⟨S1024, .f32⟩
  | .hbm, ⟨21, _⟩ => ⟨S1x1024x1024, .f32⟩
  | .hbm, ⟨22, _⟩ => ⟨S256x1x1024, .f32⟩
  | .hbm, ⟨23, _⟩ => ⟨S256x1024x1024, .f32⟩
  | .hbm, ⟨24, _⟩ => ⟨S256x1024x1024, .f32⟩
  | .hbm, ⟨25, _⟩ => ⟨S256x1024x1024, .f32⟩
  | .hbm, ⟨26, _⟩ => ⟨S_, .f32⟩
  | .hbm, ⟨27, _⟩ => ⟨S256x1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S1x1024x1024, .f32⟩
  | .hbm, ⟨32, _⟩ => ⟨S1024x1024, .f32⟩
  | .hbm, ⟨33, _⟩ => ⟨S1x1024, .f32⟩
  | .hbm, ⟨34, _⟩ => ⟨S1024, .f32⟩
  | .hbm, ⟨35, _⟩ => ⟨S1x1024x1024, .f32⟩
  | .hbm, ⟨36, _⟩ => ⟨S256x1x1024, .f32⟩
  | .hbm, ⟨37, _⟩ => ⟨S256x1024x1024, .f32⟩
  | .hbm, ⟨38, _⟩ => ⟨S256x1024x1024, .f32⟩
  | .hbm, ⟨39, _⟩ => ⟨S256x1024x1024, .f32⟩
  | .hbm, ⟨40, _⟩ => ⟨S_, .f32⟩
  | .hbm, ⟨41, _⟩ => ⟨S256x1024, .f32⟩
  | .hbm, ⟨42, _⟩ => ⟨S1x1024, .f32⟩
  | .hbm, ⟨43, _⟩ => ⟨S256x1024, .f32⟩
  | .hbm, ⟨44, _⟩ => ⟨S256x1024, .f32⟩
  | .hbm, ⟨45, _⟩ => ⟨S1x1x1024, .f32⟩
  | .hbm, ⟨46, _⟩ => ⟨S256x1x1024, .f32⟩
  | .hbm, ⟨47, _⟩ => ⟨S256x1x1024, .f32⟩
  | .hbm, ⟨48, _⟩ => ⟨S256x1x1024, .f32⟩
  | .hbm, ⟨49, _⟩ => ⟨S_, .f32⟩
  | .hbm, ⟨50, _⟩ => ⟨S256x1, .f32⟩
  | .hbm, ⟨51, _⟩ => ⟨S1x1, .f32⟩
  | .hbm, ⟨52, _⟩ => ⟨S256x1, .f32⟩
  | .hbm, ⟨53, _⟩ => ⟨S256x1, .f32⟩
  | .hbm, ⟨54, _⟩ => ⟨S256, .f32⟩
  | _, _ => ⟨S256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  bcast_S1024x3_S1x1024x3_1_2 : S1024x3.BroadcastsInDim S1x1024x3 (![1, 2] : Fin 2 → Fin S1x1024x3.rank)
  bcast_S256x3_S256x1x3_0_2 : S256x3.BroadcastsInDim S256x1x3 (![0, 2] : Fin 2 → Fin S256x1x3.rank)
  bcast_S1x1024x3_S256x1024x3_0_1_2 : S1x1024x3.BroadcastsInDim S256x1024x3 (![0, 1, 2] : Fin 3 → Fin S256x1024x3.rank)
  bcast_S256x1x3_S256x1024x3_0_1_2 : S256x1x3.BroadcastsInDim S256x1024x3 (![0, 1, 2] : Fin 3 → Fin S256x1024x3.rank)
  reducesTo_S256x1024x3_S256x1024_d2 : S256x1024x3.ReducesTo [2] S256x1024
  h_S_ : 0 < S_.numel
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  slices_S2x1024x1024_S1x1024x1024_0_0_0 : S2x1024x1024.Slices ![0, 0, 0] S1x1024x1024
  shapeCasts_S1x1024x1024_S1024x1024 : S1x1024x1024.ShapeCasts S1024x1024
  slices_S2x1024_S1x1024_0_0 : S2x1024.Slices ![0, 0] S1x1024
  shapeCasts_S1x1024_S1024 : S1x1024.ShapeCasts S1024
  bcast_S1024x1024_S1x1024x1024_1_2 : S1024x1024.BroadcastsInDim S1x1024x1024 (![1, 2] : Fin 2 → Fin S1x1024x1024.rank)
  bcast_S256x1024_S256x1x1024_0_2 : S256x1024.BroadcastsInDim S256x1x1024 (![0, 2] : Fin 2 → Fin S256x1x1024.rank)
  bcast_S1x1024x1024_S256x1024x1024_0_1_2 : S1x1024x1024.BroadcastsInDim S256x1024x1024 (![0, 1, 2] : Fin 3 → Fin S256x1024x1024.rank)
  bcast_S256x1x1024_S256x1024x1024_0_1_2 : S256x1x1024.BroadcastsInDim S256x1024x1024 (![0, 1, 2] : Fin 3 → Fin S256x1024x1024.rank)
  reducesTo_S256x1024x1024_S256x1024_d2 : S256x1024x1024.ReducesTo [2] S256x1024
  slices_S2x1024x1024_S1x1024x1024_1_0_0 : S2x1024x1024.Slices ![1, 0, 0] S1x1024x1024
  slices_S2x1024_S1x1024_1_0 : S2x1024.Slices ![1, 0] S1x1024
  bcast_S1x1024_S1x1x1024_1_2 : S1x1024.BroadcastsInDim S1x1x1024 (![1, 2] : Fin 2 → Fin S1x1x1024.rank)
  bcast_S1x1x1024_S256x1x1024_0_1_2 : S1x1x1024.BroadcastsInDim S256x1x1024 (![0, 1, 2] : Fin 3 → Fin S256x1x1024.rank)
  reducesTo_S256x1x1024_S256x1_d2 : S256x1x1024.ReducesTo [2] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256

variable [Facts₀]

class Facts : Prop extends Facts₀ where

variable [Facts]
-- ==== Proof.K.Entry.lean ====
import proofs.«139585_j60120952209906_1_alg».proof.Proof.Gen.Kernel.Launch

noncomputable section

namespace Cert.Kernel.Hand

open Idealize.ShloMosaic Idealize.ShloMosaic.TcCoe Idealize.SL.Sem
open Cert.Kernel

/-- A core's TensorCore buffers, each at its contents when a region is entered. -/
abbrev EntryV (F : FTy → Type) : Type := (c : Dev nD) → (b : Ref sig .tc) → Buf (Elt F) ((c : Thread nD τ).loc b)

end Cert.Kernel.Hand

end
-- ==== Proof.K.R0.Runs.lean ====
import proofs.«139585_j60120952209906_1_alg».proof.Proof.Gen.Kernel.Skeleton
import proofs.«139585_j60120952209906_1_alg».proof.Proof.Gen.Kernel.Points
import proofs.«139585_j60120952209906_1_alg».proof.Proof.K.Entry
import Idealize.ShloMosaic.Lib.Pipeline.FrameSuffix
import Idealize.ShloMosaic.Lib.Pipeline.Value
import Idealize.ShloMosaic.Lib.Ring

noncomputable section

namespace Cert.Kernel.Hand

open Idealize.ShloMosaic Idealize.ShloMosaic.TcCoe Idealize.ShloMosaic.Tactic
open Idealize.SL Idealize.SL.RA Idealize.SL.BI
open Idealize.SL.BI.BIBase Idealize.SL.ProofMode Idealize.SL.Sem
open Cert.Kernel Cert.Kernel.Gen

variable {F : FTy → Type} [FloatOps F]

-- Window w's block at point t, read off the array the region starts from.
def iblk0 (V : EntryV F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The contraction axis has one step: every point is both its first and its last.
theorem hcond0 : ∀ t : Fin cfg0.N, Scalar.cmpi .ne (Scalar.extui (Scalar.cmpi .eq (BitVec.ofNat 32 (grid0.coords t 1).val) 0#32)) 0#32 = 1#1 ∧ k0_cond2 (grid0.coords t) = 1#1 := by
  decide +kernel

theorem coord1_zero0 : ∀ t : Fin cfg0.N, (cfg0.grid.coords t 1).val = 0 := by decide +kernel

theorem liveAt0 : ∀ (w : Fin 4) (t : Fin cfg0.N), idle0 w (grid0.coords t) = false := by decide +kernel

theorem hz : (![0, 0] : Fin 2 → ℕ) = fun _ => 0 := by funext a; fin_cases a <;> rfl

-- One pass of the body: the accumulator ends at the update of the reset value by the two input blocks,
-- the output block at that plus the bias block.
theorem kernelRun0_D (c : Dev nD) (t : Fin cfg0.N) (x0 : Vec F S256x3 .f32) (x1 : Vec F S128x3 .f32) (x2 : Vec F S1x128 .f32) (E : Set ℕ) (K : PUnit → sProp (MT nD τ sig Unit (Elt F) ℕ (UR sig nD τ) ℕ)) :
    iprop(owns c (st0_0 t) fullShare x0 ∗ owns c (st0_1 t) fullShare x1 ∗ owns c (st0_2 t) fullShare x2
        ∗ (∃ d, owns c (st0_3 t) fullShare d) ∗ (∃ d, owns c (Memref.whole cc0_scratch0) fullShare d)
        ∗ (iprop(owns c (st0_0 t) fullShare x0 ∗ owns c (st0_1 t) fullShare x1 ∗ owns c (st0_2 t) fullShare x2
            ∗ owns c (st0_3 t) fullShare (k0_pay3 (k0_pay2 x0 x1 k0_pay1) x2) ∗ owns c (Memref.whole cc0_scratch0) fullShare (k0_pay2 x0 x1 k0_pay1)) -∗ K ⟨⟩))
      ⊢ wp frame (wpE (defs₀ (F := F)) Variants.none c none) E (bodyAt0 t) K := by
  simp only [bodyAt0, cc0__tropical_kernel_eq_skeleton]; unfold cc0__tropical_kernel_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  sl_exec (disch := first | exact (hcond0 t).1 | exact (hcond0 t).2)
  sl_step
  iapply Hk
  isplitl [H0]; swap; isplitl [H1]; swap; isplitl [H2]; swap; isplitl [H3]
  all_goals iexists _; isplitr; swap; · iassumption
  all_goals ipureintro; try assumption
  all_goals
    rw [View.read_writes_eq_canon _ _ _ (View.cover_of_tiledL _ S256x128.size (by sl_kernel_rfl))]
    sl_unfold_words
    rw [View.readCov_eq_canon_ld _ _ _ (View.cover_of_tiledL _ S256x128.size (by sl_kernel_rfl))]
    simp only [View.canon_cons_unit_zero (S := S256x128) hz, View.readCov_unit_zero (S := S256x128) _ hz, View.readAt_eq_ld, hf0, hf1, hf2,
      View.ld_unit_zero (S := S256x128) hz, View.ld_unit_zero (S := S256x3) hz, View.ld_unit_zero (S := S128x3) hz, View.ld_unit_zero (S := S1x128) hz]

end Cert.Kernel.Hand

end
-- ==== Proof.K.R0.Frame.lean ====
import proofs.«139585_j60120952209906_1_alg».proof.Proof.K.R0.Runs

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : EntryV F) (c : Dev nD) (t : Fin cfg0.N)

-- What point n leaves: the output block, and the accumulator it is computed from.
def outsAt0 : (n : ℕ) → n < cfg0.N → Vec F S256x128 .f32 × Vec F S256x128 .f32 :=
  fun n hn => let s := k0_pay2 (iblk0 V c 0 ⟨n, hn⟩) (iblk0 V c 1 ⟨n, hn⟩) k0_pay1
    (k0_pay3 s (iblk0 V c 2 ⟨n, hn⟩), s)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ _ := Pipeline.ΦA spec0 c
  q _ := fullShare
  owed _ := 0

theorem A_eq0 (w : Fin cfg0.W) : (dat0 V c).A w = V c (Pipeline.arrRef spec0 w) := rfl
theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = (outsAt0 V c t.val t.isLt).1 := rfl
theorem owed0 (s) : (dat0 V c).owed s = 0 := rfl
theorem share0 (w) : (dat0 V c).q w = fullShare := rfl
theorem recorded0 (s) : (dat0 V c).recorded s = Set.univ := rfl

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d
theorem before0_2 (d) : (dat0 V c).before 2 t d = iblk0 V c 2 t :=
  (dat0 V c).before_in_eq_fetched 2 rfl (fun _ => rfl) (fun _ _ _ => rfl) (fun _ => rfl) t d

theorem Phi0 (x) : (dat0 V c).Φ x = Pipeline.ΦA spec0 c := rfl

-- At every point the body takes the invariant and the input blocks to the invariant and the blocks dat0 names.
theorem body_obligation0 : BodyObligation (dat0 V c) (defs₀ (F := F)) Variants.none () Set.univ := fun t => by
  simp only [bigSep_W0, liveAt0, before0_0, before0_1, before0_2, after0_0, after0_1, after0_2, Phi0, Pipeline.ΦA, scopedRest0_split, ← owns_whole]
  iintro ⟨⟨⟨HS0, Hrest⟩, Hg⟩, Ho, ⟨%d0, H0⟩, ⟨%d1, H1⟩, ⟨%d2, H2⟩, ⟨%d3, H3⟩⟩
  iapply kernelRun0_D c t _ _ _ _ _
  iframe H0 H1 H2 HS0
  isplitl [H3]; · iexists _; iexact H3
  iintro ⟨H0, H1, H2, H3, HS0⟩
  iframe
  isplitl [HS0]; · iexists _; iexact HS0
  isplitl [Ho]; · iexact Ho
  iexact H3

theorem hin0 : Pipeline.ΦA spec0 c ⊢ (dat0 V c).Φ 0 := .refl
theorem hout0 : (dat0 V c).Φ (Fin.last cfg0.N) ⊢ Pipeline.ΦA spec0 c := .refl

theorem outsAt0_first (h : (cfg0.grid.coords t 1).val = 0) :
    (outsAt0 V c t.val t.isLt).2 = k0_pay2 (iblk0 V c 0 t) (iblk0 V c 1 t) k0_pay1 := rfl

theorem outsAt0_next (h : (cfg0.grid.coords t 1).val ≠ 0) :
    (outsAt0 V c t.val t.isLt).2 = k0_pay2 (iblk0 V c 0 t) (iblk0 V c 1 t) (outsAt0 V c (t.val - 1) (Nat.lt_of_le_of_lt (Nat.sub_le _ _) t.isLt)).2 :=
  absurd (coord1_zero0 t) h

theorem outsAt0_out (h : (cfg0.grid.coords t 1).val + 1 = 1) :
    (outsAt0 V c t.val t.isLt).1 = k0_pay3 (outsAt0 V c t.val t.isLt).2 (iblk0 V c 2 t) := rfl

end Cert.Kernel.Hand

end
-- ==== Proof.K.R1.Runs.lean ====
import proofs.«139585_j60120952209906_1_alg».proof.Proof.Gen.Kernel.Launch
import proofs.«139585_j60120952209906_1_alg».proof.Proof.Gen.Kernel.Skeleton
import proofs.«139585_j60120952209906_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem coord1_1 : ∀ t : Fin cfg1.N, (cfg1.grid.coords t 1).val = t.val % 8 :=
  (by decide +kernel : ∀ t : Fin grid1.N, (grid1.coords t 1).val = t.val % 8)

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

abbrev ms1_0 (t : Fin cfg1.N) : Memref sig .tc .vmem S256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)

abbrev scM1_0 : Memref sig .tc .vmem S256x128 .f32 := Memref.whole cc1_scratch0

/-- The launch's invariant with the accumulator's ownership `P` in the place of "owned at some contents". -/
def PhiWith1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) : (Pipeline.ΦA spec1 c : sProp 𝕄) = PhiWith1 c iprop(∃ d, owns (c : Thread nD τ) scM1_0 fullShare d) := by
  unfold Pipeline.ΦA PhiWith1; rw [scopedRest1_split]; simp only [scM1_0, owns_whole]; try rfl

theorem skel1_equations_realized : True := by
  have := @cc1__tropical_kernel_skel.eq_1
  have := @cc1__tropical_kernel_skel.congr_simp
  trivial

end Cert.Kernel.Hand

end
-- ==== Proof.K.R1.Run.lean ====
import proofs.«139585_j60120952209906_1_alg».proof.Proof.K.R1.Runs
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz1 : (![0, 0] : Fin 2 → ℕ) = fun _ => 0 := by
  funext a; fin_cases a <;> rfl

variable (c : Dev nD) (i : grid1.Coords)
  (arg2 : Memref sig .tc .vmem S256x128 .f32) (harg2 : arg2.IsWhole) (arg3 : Memref sig .tc .vmem S128x128 .f32) (harg3 : arg3.IsWhole)
  (arg4 : Memref sig .tc .vmem S1x128 .f32) (harg4 : arg4.IsWhole) (arg5 : Memref sig .tc .vmem S256x128 .f32) (harg5 : arg5.IsWhole)
  (arg6 : Memref sig .tc .vmem S256x128 .f32) (harg6 : arg6.IsWhole)
  (x0 : Vec F S256x128 .f32) (x1 : Vec F S128x128 .f32) (x2 : Vec F S1x128 .f32)

/-- First contraction step: the accumulator, entered at anything, is reset and leaves at the first partial max-plus product. -/
theorem run1_A (hc0 : cond1_0 i) (hc1 : ¬cond1_1 i) (xi3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 (k1_pay1 (F := F)))) -∗ K ⟨⟩))
      ⊢ wp frame (wpE (defs₀ (F := F)) Variants.none c none) E (cc1__tropical_kernel i arg2 harg2 arg3 harg3 arg4 harg4 arg5 harg5 arg6 harg6) K := by
  simp only [cc1__tropical_kernel_eq_skeleton]; unfold cc1__tropical_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS0
  ipureintro
  rw [View.read_writes_eq_canon _ _ _ (View.cover_of_tiledL _ S256x128.size (by sl_kernel_rfl))]
  sl_unfold_words
  rw [View.canon_cons_unit_zero (S := S256x128) hz1, View.readCov_unit_zero (S := S256x128) _ hz1]
  simp only [View.readAt_eq_ld, harg2.read_unread, harg3.read_unread, View.ld_unit_zero (S := S256x128) hz1, View.ld_unit_zero (S := S128x128) hz1, View.ld_unit_zero (S := S1x128) hz1]

/-- A middle step: the accumulator leaves at its update over what it was entered with. -/
theorem run1_B (hc0 : ¬cond1_0 i) (hc1 : ¬cond1_1 i) (xs0 xi3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 xs0)) -∗ K ⟨⟩))
      ⊢ wp frame (wpE (defs₀ (F := F)) Variants.none c none) E (cc1__tropical_kernel i arg2 harg2 arg3 harg3 arg4 harg4 arg5 harg5 arg6 harg6) K := by
  simp only [cc1__tropical_kernel_eq_skeleton]; unfold cc1__tropical_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS0
  ipureintro
  rw [View.read_writes_eq_canon _ _ _ (View.cover_of_tiledL _ S256x128.size (by sl_kernel_rfl))]
  sl_unfold_words
  rw [View.canon_unit_zero (S := S256x128) hz1]
  simp only [View.readAt_eq_ld, harg2.read_unread, harg3.read_unread, harg6.read_unread, View.ld_unit_zero (S := S256x128) hz1, View.ld_unit_zero (S := S128x128) hz1, View.ld_unit_zero (S := S1x128) hz1]

/-- Last step: the same update, and the output block, entered at anything, leaves at the updated accumulator plus the bias row. -/
theorem run1_C (hc0 : ¬cond1_0 i) (hc1 : cond1_1 i) (xs0 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 xs0) x2) ∗ owns (c : Thread nD τ) arg6 fullShare (k1_pay2 x0 x1 xs0)) -∗ K ⟨⟩))
      ⊢ wp frame (wpE (defs₀ (F := F)) Variants.none c none) E (cc1__tropical_kernel i arg2 harg2 arg3 harg3 arg4 harg4 arg5 harg5 arg6 harg6) K := by
  simp only [cc1__tropical_kernel_eq_skeleton]; unfold cc1__tropical_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S256x128.size (by sl_kernel_rfl))]
    sl_unfold_words
    rw [View.canon_unit_zero (S := S256x128) hz1]
    simp only [View.readAt_eq_ld, harg2.read_unread, harg3.read_unread, harg4.read_unread, harg6.read_unread, View.ld_unit_zero (S := S256x128) hz1, View.ld_unit_zero (S := S128x128) hz1, View.ld_unit_zero (S := S1x128) hz1, View.readCov_unit_zero (S := S256x128) _ hz1]
  iexists _; isplitr; swap; · iexact HS0
  ipureintro
  rw [View.read_writes_eq_canon _ _ _ (View.cover_of_tiledL _ S256x128.size (by sl_kernel_rfl))]
  sl_unfold_words
  rw [View.canon_unit_zero (S := S256x128) hz1]
  simp only [View.readAt_eq_ld, harg2.read_unread, harg3.read_unread, harg6.read_unread, View.ld_unit_zero (S := S256x128) hz1, View.ld_unit_zero (S := S128x128) hz1, View.ld_unit_zero (S := S1x128) hz1]

end Cert.Kernel.Hand

end
-- ==== Proof.K.R1.Frame.lean ====
import proofs.«139585_j60120952209906_1_alg».proof.Proof.K.R1.Run
import proofs.«139585_j60120952209906_1_alg».proof.Proof.K.Entry
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def iblk1 (V : EntryV F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: the update over the reset value at a first contraction step, else over the point before. -/
def acc1 (V : EntryV F) (c : Dev nD) : (n : ℕ) → n < cfg1.N → Vec F S256x128 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 8 = 0 then k1_pay1 (F := F) else acc1 V c n (Nat.lt_of_succ_lt hn))

theorem acc1_step (V : EntryV F) (c : Dev nD) (t : Fin cfg1.N) :
    acc1 V c t.val t.isLt = k1_pay2 (iblk1 V c 0 t) (iblk1 V c 1 t) (if t.val % 8 = 0 then k1_pay1 (F := F) else (acc1 V c (t.val - 1) (Nat.lt_of_le_of_lt (Nat.sub_le _ _) t.isLt))) := by
  obtain ⟨n, hn⟩ := t
  cases n with
  | zero => exact congrArg (k1_pay2 (iblk1 V c 0 ⟨0, hn⟩) (iblk1 V c 1 ⟨0, hn⟩)) (if_pos (Nat.zero_mod 8)).symm
  | succ n => rfl

/-- What the output block (first) and the accumulator (second) hold after point `n`; the first is read only at a last step. -/
def outsAt1 (V : EntryV F) (c : Dev nD) (n : ℕ) (hn : n < cfg1.N) : Vec F S256x128 .f32 × Vec F S256x128 .f32 :=
  (k1_pay3 (acc1 V c n hn) (iblk1 V c 2 ⟨n, hn⟩), acc1 V c n hn)

theorem outsAt1_first (V : EntryV F) (c : Dev nD) (t : Fin cfg1.N) (h : (cfg1.grid.coords t 1).val = 0) :
    (outsAt1 V c t.val t.isLt).2 = k1_pay2 (iblk1 V c 0 t) (iblk1 V c 1 t) (k1_pay1 (F := F)) :=
  (acc1_step V c t).trans (congrArg _ (if_pos ((coord1_1 t).symm.trans h)))

theorem outsAt1_next (V : EntryV F) (c : Dev nD) (t : Fin cfg1.N) (h : (cfg1.grid.coords t 1).val ≠ 0) :
    (outsAt1 V c t.val t.isLt).2 = k1_pay2 (iblk1 V c 0 t) (iblk1 V c 1 t) (outsAt1 V c (t.val - 1) (Nat.lt_of_le_of_lt (Nat.sub_le _ _) t.isLt)).2 :=
  (acc1_step V c t).trans (congrArg _ (if_neg fun e => h ((coord1_1 t).trans e)))

theorem outsAt1_out (V : EntryV F) (c : Dev nD) (t : Fin cfg1.N) (h : (cfg1.grid.coords t 1).val + 1 = 8) :
    (outsAt1 V c t.val t.isLt).1 = k1_pay3 (outsAt1 V c t.val t.isLt).2 (iblk1 V c 2 t) := rfl

/-- Before the first point the launch's invariant; afterwards the accumulator at what the point before left. -/
def PhiS1 (V : EntryV F) (c : Dev nD) : (n : ℕ) → n ≤ cfg1.N → sProp 𝕄
  | 0, _ => Pipeline.ΦA spec1 c
  | n + 1, hn => PhiWith1 c (owns (c : Thread nD τ) scM1_0 fullShare (acc1 V c n hn))

theorem PhiS1_pos (V : EntryV F) (c : Dev nD) (n : ℕ) (h : n ≤ cfg1.N) (hz : n ≠ 0) :
    PhiS1 V c n h = PhiWith1 c (owns (c : Thread nD τ) scM1_0 fullShare (acc1 V c (n - 1) (by omega))) := by
  cases n with
  | zero => exact absurd rfl hz
  | succ n => rfl

def dat1 (V : EntryV F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (V : EntryV F) (c : Dev nD) (w : Fin cfg1.W) : (dat1 V c).A w = V c (Pipeline.arrRef spec1 w) := rfl
theorem after1_3 (V : EntryV F) (c : Dev nD) (t : Fin cfg1.N) : (dat1 V c).after 3 t = (outsAt1 V c t.val t.isLt).1 := rfl
theorem owed1 (V : EntryV F) (c : Dev nD) (t) : (dat1 V c).owed t = 0 := rfl
theorem share1 (V : EntryV F) (c : Dev nD) (w) : (dat1 V c).q w = fullShare := rfl
theorem recorded1 (V : EntryV F) (c : Dev nD) (t) : (dat1 V c).recorded t = Set.univ := rfl

/-- The body leaves each input's block in place, so the block is there at every point: one argument for the three inputs. -/
theorem before1 (V : EntryV F) (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) := by
  refine ⟨fun d => ?_, fun d => ?_, fun d => ?_⟩ <;>
    exact ((dat1 V c).before_in_eq_fetched _ rfl (fun _ => rfl) (fun _ _ _ => rfl) (fun _ => rfl) t d).trans rfl

/-- Whatever the invariant holds of the accumulator, it gives the launch's back. -/
theorem Phi_weak1 (V : EntryV F) (c : Dev nD) (t : Fin (cfg1.N + 1)) : (dat1 V c).Φ t ⊢ Pipeline.ΦA spec1 c := by
  obtain ⟨n, hn⟩ := t
  cases n with
  | zero => exact Idealize.SL.BI.Entails.refl _
  | succ n =>
    show PhiWith1 c _ ⊢ _
    rw [PhiA1_eq]; unfold PhiWith1
    iintro ⟨⟨HS0, HR⟩, Hg⟩
    isplitl [HS0 HR]
    · isplitl [HS0]
      · iexists _; iexact HS0
      iexact HR
    iexact Hg

theorem hin1 (V : EntryV F) (c : Dev nD) : Pipeline.ΦA spec1 c ⊢ (dat1 V c).Φ 0 := Idealize.SL.BI.Entails.refl _
theorem hout1 (V : EntryV F) (c : Dev nD) : (dat1 V c).Φ (Fin.last cfg1.N) ⊢ Pipeline.ΦA spec1 c := Phi_weak1 V c _

def bodyPre1 (V : EntryV F) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (V : EntryV F) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at any point: the point's position in its run of eight contraction steps says which case it is in. -/
theorem sound_body1 (V : EntryV F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2]
  rw [show (dat1 V c).owesAt () t.succ = (dat1 V c).owesAt () t.castSucc from rfl,
    show (dat1 V c).Φ t.succ = PhiWith1 c (owns (c : Thread nD τ) scM1_0 fullShare (acc1 V c t.val t.isLt)) from rfl, acc1_step,
    show (dat1 V c).leavesExact 0 t = owns (c : Thread nD τ) (ms1_0 t) fullShare (iblk1 V c 0 t) from by unfold Dat.leavesExact; rw [liveAt1_0 t]; rfl,
    show (dat1 V c).leavesExact 1 t = owns (c : Thread nD τ) (ms1_1 t) fullShare (iblk1 V c 1 t) from by unfold Dat.leavesExact; rw [liveAt1_1 t]; rfl,
    show (dat1 V c).leavesExact 2 t = owns (c : Thread nD τ) (ms1_2 t) fullShare (iblk1 V c 2 t) from by unfold Dat.leavesExact; rw [liveAt1_2 t]; rfl]
  by_cases h0 : t.val % 8 = 0
  · have hc0 := (hcond1_0 t).mpr h0
    have hc1 : ¬cond1_1 (grid1.coords t) := fun h => by have := (hcond1_1 t).mp h; omega
    rw [if_pos h0, Dat.leavesExact_idle (dat1 V c) 3 t (idleAt1_3_A t hc0 hc1) (noFlush1_3_A t hc0 hc1)]
    refine (sep_mono_left (Phi_weak1 V c t.castSucc)).trans ?_
    rw [PhiA1_eq]; unfold PhiWith1
    iintro ⟨⟨⟨⟨%ds, HS0⟩, HR⟩, Hg⟩, Ho, ⟨%d0, H0⟩, ⟨%d1, H1⟩, ⟨%d2, H2⟩, ⟨%d3, H3⟩⟩
    iapply (run1_A c (grid1.coords t) _ _ _ _ _ _ _ _ _ _ (iblk1 V c 0 t) (iblk1 V c 1 t) (iblk1 V c 2 t) hc0 hc1 _ Set.univ _)
    iframe H0 H1 H2 H3
    isplitl [HS0]; · iexists _; iexact HS0
    iintro ⟨H0, H1, H2, H3, HS0⟩
    iframe HS0 HR Hg Ho H0 H1 H2
    iexists _; iexact H3
  · have hc0 : ¬cond1_0 (grid1.coords t) := fun h => h0 ((hcond1_0 t).mp h)
    have hz : t.val ≠ 0 := fun e => h0 (e ▸ Nat.zero_mod 8)
    rw [if_neg h0, show (dat1 V c).Φ t.castSucc = PhiS1 V c t.val (Nat.le_of_lt t.isLt) from rfl, PhiS1_pos V c _ _ hz]
    unfold PhiWith1
    by_cases h1 : t.val % 8 = 7
    · have hc1 := (hcond1_1 t).mpr h1
      rw [show (dat1 V c).leavesExact 3 t = owns (c : Thread nD τ) (ms1_3 t) fullShare ((dat1 V c).after 3 t) from by
        unfold Dat.leavesExact; rw [liveAt1_3_C t hc0 hc1], after1_3]
      rw [show (outsAt1 V c t.val t.isLt).1 = k1_pay3 (acc1 V c t.val t.isLt) (iblk1 V c 2 t) from rfl, acc1_step, if_neg h0]
      iintro ⟨⟨⟨HS0, HR⟩, Hg⟩, Ho, ⟨%d0, H0⟩, ⟨%d1, H1⟩, ⟨%d2, H2⟩, ⟨%d3, H3⟩⟩
      iapply (run1_C c (grid1.coords t) _ _ _ _ _ _ _ _ _ _ (iblk1 V c 0 t) (iblk1 V c 1 t) (iblk1 V c 2 t) hc0 hc1 _ Set.univ _)
      iframe H0 H1 H2 HS0
      isplitl [H3]; · iexists _; iexact H3
      iintro ⟨H0, H1, H2, H3, HS0⟩
      iframe
    · have hc1 : ¬cond1_1 (grid1.coords t) := fun h => h1 ((hcond1_1 t).mp h)
      rw [Dat.leavesExact_idle (dat1 V c) 3 t (idleAt1_3_B t hc0 hc1) (noFlush1_3_B t hc0 hc1)]
      iintro ⟨⟨⟨HS0, HR⟩, Hg⟩, Ho, ⟨%d0, H0⟩, ⟨%d1, H1⟩, ⟨%d2, H2⟩, ⟨%d3, H3⟩⟩
      iapply (run1_B c (grid1.coords t) _ _ _ _ _ _ _ _ _ _ (iblk1 V c 0 t) (iblk1 V c 1 t) (iblk1 V c 2 t) hc0 hc1 _ _ Set.univ _)
      iframe H0 H1 H2 H3 HS0
      iintro ⟨H0, H1, H2, H3, HS0⟩
      iframe HS0 HR Hg Ho H0 H1 H2
      iexists _; iexact H3

theorem body_obligation1 (V : EntryV F) (c : Dev nD) : BodyObligation (dat1 (F := F) V c) (defs₀ (F := F)) Variants.none () Set.univ := fun t => by
  rw [bigSep_W1, bigSep_W1]
  exact sound_body1 V c t

end Cert.Kernel.Hand

end
-- ==== Proof.K.R2.Runs.lean ====
import proofs.«139585_j60120952209906_1_alg».proof.Proof.Gen.Kernel.Launch
import proofs.«139585_j60120952209906_1_alg».proof.Proof.Gen.Kernel.Skeleton
import proofs.«139585_j60120952209906_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem coord2_1 : ∀ t : Fin cfg2.N, (cfg2.grid.coords t 1).val = t.val % 8 :=
  (by decide +kernel : ∀ t : Fin grid2.N, (grid2.coords t 1).val = t.val % 8)

theorem idleAt2_3_A : ∀ t : Fin cfg2.N, cond2_0 (grid2.coords t) → ¬cond2_1 (grid2.coords t) → cfg2.idle 3 (grid2.coords t) = true := by decide +kernel

theorem noFlush2_3_A : ∀ t : Fin cfg2.N, cond2_0 (grid2.coords t) → ¬cond2_1 (grid2.coords t) → (cfg2.win 3).flush t = false := by decide +kernel

theorem idleAt2_3_B : ∀ t : Fin cfg2.N, ¬cond2_0 (grid2.coords t) → ¬cond2_1 (grid2.coords t) → cfg2.idle 3 (grid2.coords t) = true := by decide +kernel

theorem noFlush2_3_B : ∀ t : Fin cfg2.N, ¬cond2_0 (grid2.coords t) → ¬cond2_1 (grid2.coords t) → (cfg2.win 3).flush t = false := by decide +kernel

theorem liveAt2_3_C : ∀ t : Fin cfg2.N, ¬cond2_0 (grid2.coords t) → cond2_1 (grid2.coords t) → cfg2.idle 3 (grid2.coords t) = false := by decide +kernel

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

abbrev ms2_0 (t : Fin cfg2.N) : Memref sig .tc .vmem S256x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x128 .f32 := win2_3.stage (cfg2.slots t 3)
abbrev hs2_3 (t : Fin cfg2.N) : (ms2_3 t).IsWhole := hstage2_3 ((cfg2.slots t 3).cast nbuf2_3)

abbrev scM2_0 : Memref sig .tc .vmem S256x128 .f32 := Memref.whole cc2_scratch0

/-- The launch's invariant with the accumulator's ownership `P` in the place of "owned at some contents". -/
def PhiWith2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = PhiWith2 c iprop(∃ d, owns (c : Thread nD τ) scM2_0 fullShare d) := by
  unfold Pipeline.ΦA PhiWith2; rw [scopedRest2_split]; simp only [scM2_0, owns_whole]; try rfl

theorem skel2_equations_realized : True := by
  have := @cc2__tropical_kernel_skel.eq_1
  have := @cc2__tropical_kernel_skel.congr_simp
  trivial

end Cert.Kernel.Hand

end
-- ==== Proof.K.R2.Run.lean ====
import proofs.«139585_j60120952209906_1_alg».proof.Proof.K.R2.Runs
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by
  funext a; fin_cases a <;> rfl

variable (c : Dev nD) (i : grid2.Coords)
  (arg2 : Memref sig .tc .vmem S256x128 .f32) (harg2 : arg2.IsWhole) (arg3 : Memref sig .tc .vmem S128x128 .f32) (harg3 : arg3.IsWhole)
  (arg4 : Memref sig .tc .vmem S1x128 .f32) (harg4 : arg4.IsWhole) (arg5 : Memref sig .tc .vmem S256x128 .f32) (harg5 : arg5.IsWhole)
  (arg6 : Memref sig .tc .vmem S256x128 .f32) (harg6 : arg6.IsWhole)
  (x0 : Vec F S256x128 .f32) (x1 : Vec F S128x128 .f32) (x2 : Vec F S1x128 .f32)

/-- First contraction step: the accumulator, entered at anything, is reset and leaves at the first partial max-plus product. -/
theorem run2_A (hc0 : cond2_0 i) (hc1 : ¬cond2_1 i) (xi3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 x0 x1 (k2_pay1 (F := F)))) -∗ K ⟨⟩))
      ⊢ wp frame (wpE (defs₀ (F := F)) Variants.none c none) E (cc2__tropical_kernel i arg2 harg2 arg3 harg3 arg4 harg4 arg5 harg5 arg6 harg6) K := by
  simp only [cc2__tropical_kernel_eq_skeleton]; unfold cc2__tropical_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS0
  ipureintro
  rw [View.read_writes_eq_canon _ _ _ (View.cover_of_tiledL _ S256x128.size (by sl_kernel_rfl))]
  sl_unfold_words
  rw [View.canon_cons_unit_zero (S := S256x128) hz2, View.readCov_unit_zero (S := S256x128) _ hz2]
  simp only [View.readAt_eq_ld, harg2.read_unread, harg3.read_unread, View.ld_unit_zero (S := S256x128) hz2, View.ld_unit_zero (S := S128x128) hz2, View.ld_unit_zero (S := S1x128) hz2]

/-- A middle step: the accumulator leaves at its update over what it was entered with. -/
theorem run2_B (hc0 : ¬cond2_0 i) (hc1 : ¬cond2_1 i) (xs0 xi3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 x0 x1 xs0)) -∗ K ⟨⟩))
      ⊢ wp frame (wpE (defs₀ (F := F)) Variants.none c none) E (cc2__tropical_kernel i arg2 harg2 arg3 harg3 arg4 harg4 arg5 harg5 arg6 harg6) K := by
  simp only [cc2__tropical_kernel_eq_skeleton]; unfold cc2__tropical_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS0
  ipureintro
  rw [View.read_writes_eq_canon _ _ _ (View.cover_of_tiledL _ S256x128.size (by sl_kernel_rfl))]
  sl_unfold_words
  rw [View.canon_unit_zero (S := S256x128) hz2]
  simp only [View.readAt_eq_ld, harg2.read_unread, harg3.read_unread, harg6.read_unread, View.ld_unit_zero (S := S256x128) hz2, View.ld_unit_zero (S := S128x128) hz2, View.ld_unit_zero (S := S1x128) hz2]

/-- Last step: the same update, and the output block, entered at anything, leaves at the updated accumulator plus the bias row. -/
theorem run2_C (hc0 : ¬cond2_0 i) (hc1 : cond2_1 i) (xs0 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k2_pay3 (k2_pay2 x0 x1 xs0) x2) ∗ owns (c : Thread nD τ) arg6 fullShare (k2_pay2 x0 x1 xs0)) -∗ K ⟨⟩))
      ⊢ wp frame (wpE (defs₀ (F := F)) Variants.none c none) E (cc2__tropical_kernel i arg2 harg2 arg3 harg3 arg4 harg4 arg5 harg5 arg6 harg6) K := by
  simp only [cc2__tropical_kernel_eq_skeleton]; unfold cc2__tropical_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S256x128.size (by sl_kernel_rfl))]
    sl_unfold_words
    rw [View.canon_unit_zero (S := S256x128) hz2]
    simp only [View.readAt_eq_ld, harg2.read_unread, harg3.read_unread, harg4.read_unread, harg6.read_unread, View.ld_unit_zero (S := S256x128) hz2, View.ld_unit_zero (S := S128x128) hz2, View.ld_unit_zero (S := S1x128) hz2, View.readCov_unit_zero (S := S256x128) _ hz2]
  iexists _; isplitr; swap; · iexact HS0
  ipureintro
  rw [View.read_writes_eq_canon _ _ _ (View.cover_of_tiledL _ S256x128.size (by sl_kernel_rfl))]
  sl_unfold_words
  rw [View.canon_unit_zero (S := S256x128) hz2]
  simp only [View.readAt_eq_ld, harg2.read_unread, harg3.read_unread, harg6.read_unread, View.ld_unit_zero (S := S256x128) hz2, View.ld_unit_zero (S := S128x128) hz2, View.ld_unit_zero (S := S1x128) hz2]

end Cert.Kernel.Hand

end
-- ==== Proof.K.R2.Frame.lean ====
import proofs.«139585_j60120952209906_1_alg».proof.Proof.K.R2.Run
import proofs.«139585_j60120952209906_1_alg».proof.Proof.K.Entry
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def iblk2 (V : EntryV F) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: the update over the reset value at a first contraction step, else over the point before. -/
def acc2 (V : EntryV F) (c : Dev nD) : (n : ℕ) → n < cfg2.N → Vec F S256x128 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩)
      (if (n + 1) % 8 = 0 then k2_pay1 (F := F) else acc2 V c n (Nat.lt_of_succ_lt hn))

theorem acc2_step (V : EntryV F) (c : Dev nD) (t : Fin cfg2.N) :
    acc2 V c t.val t.isLt = k2_pay2 (iblk2 V c 0 t) (iblk2 V c 1 t) (if t.val % 8 = 0 then k2_pay1 (F := F) else (acc2 V c (t.val - 1) (Nat.lt_of_le_of_lt (Nat.sub_le _ _) t.isLt))) := by
  obtain ⟨n, hn⟩ := t
  cases n with
  | zero => exact congrArg (k2_pay2 (iblk2 V c 0 ⟨0, hn⟩) (iblk2 V c 1 ⟨0, hn⟩)) (if_pos (Nat.zero_mod 8)).symm
  | succ n => rfl

/-- What the output block (first) and the accumulator (second) hold after point `n`; the first is read only at a last step. -/
def outsAt2 (V : EntryV F) (c : Dev nD) (n : ℕ) (hn : n < cfg2.N) : Vec F S256x128 .f32 × Vec F S256x128 .f32 :=
  (k2_pay3 (acc2 V c n hn) (iblk2 V c 2 ⟨n, hn⟩), acc2 V c n hn)

theorem outsAt2_first (V : EntryV F) (c : Dev nD) (t : Fin cfg2.N) (h : (cfg2.grid.coords t 1).val = 0) :
    (outsAt2 V c t.val t.isLt).2 = k2_pay2 (iblk2 V c 0 t) (iblk2 V c 1 t) (k2_pay1 (F := F)) :=
  (acc2_step V c t).trans (congrArg _ (if_pos ((coord2_1 t).symm.trans h)))

theorem outsAt2_next (V : EntryV F) (c : Dev nD) (t : Fin cfg2.N) (h : (cfg2.grid.coords t 1).val ≠ 0) :
    (outsAt2 V c t.val t.isLt).2 = k2_pay2 (iblk2 V c 0 t) (iblk2 V c 1 t) (outsAt2 V c (t.val - 1) (Nat.lt_of_le_of_lt (Nat.sub_le _ _) t.isLt)).2 :=
  (acc2_step V c t).trans (congrArg _ (if_neg fun e => h ((coord2_1 t).trans e)))

theorem outsAt2_out (V : EntryV F) (c : Dev nD) (t : Fin cfg2.N) (h : (cfg2.grid.coords t 1).val + 1 = 8) :
    (outsAt2 V c t.val t.isLt).1 = k2_pay3 (outsAt2 V c t.val t.isLt).2 (iblk2 V c 2 t) := rfl

/-- Before the first point the launch's invariant; afterwards the accumulator at what the point before left. -/
def PhiS2 (V : EntryV F) (c : Dev nD) : (n : ℕ) → n ≤ cfg2.N → sProp 𝕄
  | 0, _ => Pipeline.ΦA spec2 c
  | n + 1, hn => PhiWith2 c (owns (c : Thread nD τ) scM2_0 fullShare (acc2 V c n hn))

theorem PhiS2_pos (V : EntryV F) (c : Dev nD) (n : ℕ) (h : n ≤ cfg2.N) (hz : n ≠ 0) :
    PhiS2 V c n h = PhiWith2 c (owns (c : Thread nD τ) scM2_0 fullShare (acc2 V c (n - 1) (by omega))) := by
  cases n with
  | zero => exact absurd rfl hz
  | succ n => rfl

def dat2 (V : EntryV F) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (V : EntryV F) (c : Dev nD) (w : Fin cfg2.W) : (dat2 V c).A w = V c (Pipeline.arrRef spec2 w) := rfl
theorem after2_3 (V : EntryV F) (c : Dev nD) (t : Fin cfg2.N) : (dat2 V c).after 3 t = (outsAt2 V c t.val t.isLt).1 := rfl
theorem owed2 (V : EntryV F) (c : Dev nD) (t) : (dat2 V c).owed t = 0 := rfl
theorem share2 (V : EntryV F) (c : Dev nD) (w) : (dat2 V c).q w = fullShare := rfl
theorem recorded2 (V : EntryV F) (c : Dev nD) (t) : (dat2 V c).recorded t = Set.univ := rfl

/-- The body leaves each input's block in place, so the block is there at every point: one argument for the three inputs. -/
theorem before2 (V : EntryV F) (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) := by
  refine ⟨fun d => ?_, fun d => ?_, fun d => ?_⟩ <;>
    exact ((dat2 V c).before_in_eq_fetched _ rfl (fun _ => rfl) (fun _ _ _ => rfl) (fun _ => rfl) t d).trans rfl

/-- Whatever the invariant holds of the accumulator, it gives the launch's back. -/
theorem Phi_weak2 (V : EntryV F) (c : Dev nD) (t : Fin (cfg2.N + 1)) : (dat2 V c).Φ t ⊢ Pipeline.ΦA spec2 c := by
  obtain ⟨n, hn⟩ := t
  cases n with
  | zero => exact Idealize.SL.BI.Entails.refl _
  | succ n =>
    show PhiWith2 c _ ⊢ _
    rw [PhiA2_eq]; unfold PhiWith2
    iintro ⟨⟨HS0, HR⟩, Hg⟩
    isplitl [HS0 HR]
    · isplitl [HS0]
      · iexists _; iexact HS0
      iexact HR
    iexact Hg

theorem hin2 (V : EntryV F) (c : Dev nD) : Pipeline.ΦA spec2 c ⊢ (dat2 V c).Φ 0 := Idealize.SL.BI.Entails.refl _
theorem hout2 (V : EntryV F) (c : Dev nD) : (dat2 V c).Φ (Fin.last cfg2.N) ⊢ Pipeline.ΦA spec2 c := Phi_weak2 V c _

def bodyPre2 (V : EntryV F) (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (V : EntryV F) (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The body at any point: the point's position in its run of eight contraction steps says which case it is in. -/
theorem sound_body2 (V : EntryV F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [(before2 V c t).1, (before2 V c t).2.1, (before2 V c t).2.2]
  rw [show (dat2 V c).owesAt () t.succ = (dat2 V c).owesAt () t.castSucc from rfl,
    show (dat2 V c).Φ t.succ = PhiWith2 c (owns (c : Thread nD τ) scM2_0 fullShare (acc2 V c t.val t.isLt)) from rfl, acc2_step,
    show (dat2 V c).leavesExact 0 t = owns (c : Thread nD τ) (ms2_0 t) fullShare (iblk2 V c 0 t) from by unfold Dat.leavesExact; rw [liveAt2_0 t]; rfl,
    show (dat2 V c).leavesExact 1 t = owns (c : Thread nD τ) (ms2_1 t) fullShare (iblk2 V c 1 t) from by unfold Dat.leavesExact; rw [liveAt2_1 t]; rfl,
    show (dat2 V c).leavesExact 2 t = owns (c : Thread nD τ) (ms2_2 t) fullShare (iblk2 V c 2 t) from by unfold Dat.leavesExact; rw [liveAt2_2 t]; rfl]
  by_cases h0 : t.val % 8 = 0
  · have hc0 := (hcond2_0 t).mpr h0
    have hc1 : ¬cond2_1 (grid2.coords t) := fun h => by have := (hcond2_1 t).mp h; omega
    rw [if_pos h0, Dat.leavesExact_idle (dat2 V c) 3 t (idleAt2_3_A t hc0 hc1) (noFlush2_3_A t hc0 hc1)]
    refine (sep_mono_left (Phi_weak2 V c t.castSucc)).trans ?_
    rw [PhiA2_eq]; unfold PhiWith2
    iintro ⟨⟨⟨⟨%ds, HS0⟩, HR⟩, Hg⟩, Ho, ⟨%d0, H0⟩, ⟨%d1, H1⟩, ⟨%d2, H2⟩, ⟨%d3, H3⟩⟩
    iapply (run2_A c (grid2.coords t) _ _ _ _ _ _ _ _ _ _ (iblk2 V c 0 t) (iblk2 V c 1 t) (iblk2 V c 2 t) hc0 hc1 _ Set.univ _)
    iframe H0 H1 H2 H3
    isplitl [HS0]; · iexists _; iexact HS0
    iintro ⟨H0, H1, H2, H3, HS0⟩
    iframe HS0 HR Hg Ho H0 H1 H2
    iexists _; iexact H3
  · have hc0 : ¬cond2_0 (grid2.coords t) := fun h => h0 ((hcond2_0 t).mp h)
    have hz : t.val ≠ 0 := fun e => h0 (e ▸ Nat.zero_mod 8)
    rw [if_neg h0, show (dat2 V c).Φ t.castSucc = PhiS2 V c t.val (Nat.le_of_lt t.isLt) from rfl, PhiS2_pos V c _ _ hz]
    unfold PhiWith2
    by_cases h1 : t.val % 8 = 7
    · have hc1 := (hcond2_1 t).mpr h1
      rw [show (dat2 V c).leavesExact 3 t = owns (c : Thread nD τ) (ms2_3 t) fullShare ((dat2 V c).after 3 t) from by
        unfold Dat.leavesExact; rw [liveAt2_3_C t hc0 hc1], after2_3]
      rw [show (outsAt2 V c t.val t.isLt).1 = k2_pay3 (acc2 V c t.val t.isLt) (iblk2 V c 2 t) from rfl, acc2_step, if_neg h0]
      iintro ⟨⟨⟨HS0, HR⟩, Hg⟩, Ho, ⟨%d0, H0⟩, ⟨%d1, H1⟩, ⟨%d2, H2⟩, ⟨%d3, H3⟩⟩
      iapply (run2_C c (grid2.coords t) _ _ _ _ _ _ _ _ _ _ (iblk2 V c 0 t) (iblk2 V c 1 t) (iblk2 V c 2 t) hc0 hc1 _ Set.univ _)
      iframe H0 H1 H2 HS0
      isplitl [H3]; · iexists _; iexact H3
      iintro ⟨H0, H1, H2, H3, HS0⟩
      iframe
    · have hc1 : ¬cond2_1 (grid2.coords t) := fun h => h1 ((hcond2_1 t).mp h)
      rw [Dat.leavesExact_idle (dat2 V c) 3 t (idleAt2_3_B t hc0 hc1) (noFlush2_3_B t hc0 hc1)]
      iintro ⟨⟨⟨HS0, HR⟩, Hg⟩, Ho, ⟨%d0, H0⟩, ⟨%d1, H1⟩, ⟨%d2, H2⟩, ⟨%d3, H3⟩⟩
      iapply (run2_B c (grid2.coords t) _ _ _ _ _ _ _ _ _ _ (iblk2 V c 0 t) (iblk2 V c 1 t) (iblk2 V c 2 t) hc0 hc1 _ _ Set.univ _)
      iframe H0 H1 H2 H3 HS0
      iintro ⟨H0, H1, H2, H3, HS0⟩
      iframe HS0 HR Hg Ho H0 H1 H2
      iexists _; iexact H3

theorem body_obligation2 (V : EntryV F) (c : Dev nD) : BodyObligation (dat2 (F := F) V c) (defs₀ (F := F)) Variants.none () Set.univ := fun t => by
  rw [bigSep_W2, bigSep_W2]
  exact sound_body2 V c t

end Cert.Kernel.Hand

end
-- ==== Proof.K.R3.Runs.lean ====
import proofs.«139585_j60120952209906_1_alg».proof.Proof.Gen.Kernel.Launch
import proofs.«139585_j60120952209906_1_alg».proof.Proof.Gen.Kernel.Skeleton
import proofs.«139585_j60120952209906_1_alg».proof.Proof.Gen.Kernel.Points
import proofs.«139585_j60120952209906_1_alg».proof.Proof.K.Entry
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val = 0 := by decide +kernel

abbrev cond3_1 (i : grid3.Coords) : Prop := k3_cond2 i = 1#1

theorem excl3 : ∀ t : Fin cfg3.N, cond3_0 (grid3.coords t) → ¬cond3_1 (grid3.coords t) := by decide +kernel

theorem coord3_1 : ∀ t : Fin cfg3.N, (cfg3.grid.coords t 1).val = t.val := by decide +kernel

theorem liveAt3 : ∀ (w : Fin cfg3.W) (t : Fin cfg3.N), w ≠ 3 → cfg3.idle w (grid3.coords t) = false := by decide +kernel

theorem idleAt3_3 : ∀ t : Fin cfg3.N, ¬cond3_1 (grid3.coords t) → cfg3.idle 3 (grid3.coords t) = true ∧ (cfg3.win 3).flush t = false := by decide +kernel

theorem liveAt3_3 : ∀ t : Fin cfg3.N, cond3_1 (grid3.coords t) → cfg3.idle 3 (grid3.coords t) = false := by decide +kernel

abbrev ms3_0 (t : Fin cfg3.N) : Memref sig .tc .vmem S256x128 .f32 := win3_0.stage (cfg3.slots t 0)
abbrev ms3_1 (t : Fin cfg3.N) : Memref sig .tc .vmem S1x128 .f32 := win3_1.stage (cfg3.slots t 1)
abbrev ms3_2 (t : Fin cfg3.N) : Memref sig .tc .vmem S1x1 .f32 := win3_2.stage (cfg3.slots t 2)
abbrev ms3_3 (t : Fin cfg3.N) : Memref sig .tc .vmem S256x1 .f32 := win3_3.stage (cfg3.slots t 3)

abbrev scM3_0 : Memref sig .tc .vmem S256x1 .f32 := Memref.whole cc3_scratch0

def PhiWith3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = PhiWith3 c iprop(∃ d, owns (c : Thread nD τ) scM3_0 fullShare d) := by
  unfold Pipeline.ΦA PhiWith3; rw [scopedRest3_split]; simp only [scM3_0, owns_whole]; try rfl

end Cert.Kernel.Hand

end
-- ==== Proof.K.R3.Run.lean ====
import proofs.«139585_j60120952209906_1_alg».proof.Proof.K.R3.Runs
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz3 : (![0, 0] : Fin 2 → ℕ) = fun _ => 0 := by funext a; fin_cases a <;> rfl

variable (c : Dev nD) (i : grid3.Coords) {arg2 : Memref sig .tc .vmem S256x128 .f32} (harg2 : arg2.IsWhole) {arg3 : Memref sig .tc .vmem S1x128 .f32} (harg3 : arg3.IsWhole)
  {arg4 : Memref sig .tc .vmem S1x1 .f32} (harg4 : arg4.IsWhole) {arg5 : Memref sig .tc .vmem S256x1 .f32} (harg5 : arg5.IsWhole) {arg6 : Memref sig .tc .vmem S256x1 .f32} (harg6 : arg6.IsWhole)
  (x0 : Vec F S256x128 .f32) (x1 : Vec F S1x128 .f32) (x2 : Vec F S1x1 .f32) (xi3 xs0 : Vec F S256x1 .f32)

/-- The body's triple on whole buffers: contents `x0 x1 x2 xi3 xs0` before, `x0 x1 x2 o s` after. -/
def runTo3 (o s : Vec F S256x1 .f32) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare o ∗ owns (c : Thread nD τ) arg6 fullShare s) -∗ K ⟨⟩))
      ⊢ wp frame (wpE (defs₀ (F := F)) Variants.none c none) E (cc3__tropical_kernel i arg2 harg2 arg3 harg3 arg4 harg4 arg5 harg5 arg6 harg6) K

set_option maxHeartbeats 600000 in
/-- The running maximum is updated over `k3_pay1` where `cond3_0` holds, over its old value elsewhere; where `cond3_1` holds the output block becomes that plus the bias. -/
theorem kernelRun3 (h : cond3_0 i → ¬cond3_1 i) :
    runTo3 c i harg2 harg3 harg4 harg5 harg6 x0 x1 x2 xi3 xs0
      (if cond3_1 i then k3_pay3 (k3_pay2 x0 x1 (if cond3_0 i then k3_pay1 else xs0)) x2 else xi3) (k3_pay2 x0 x1 (if cond3_0 i then k3_pay1 else xs0)) := by
  intro E K
  by_cases hc0 : cond3_0 i <;> by_cases hc1 : cond3_1 i
  · exact absurd hc1 (h hc0)
  all_goals
    first | rw [if_pos hc1] | rw [if_neg hc1]
    first | rw [if_pos hc0] | rw [if_neg hc0]
    simp only [cc3__tropical_kernel_eq_skeleton]; unfold cc3__tropical_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3] <;> (iexists _; isplitr; swap; · iassumption) <;> ipureintro <;> first
      | exact harg5.read_unread _
      | (
        rw [View.read_writes_eq_canon _ _ _ (View.cover_of_tiledL _ S256x1.size (by sl_kernel_rfl))]
        sl_unfold_words
        rw [View.canon_cons_unit_zero (S := S256x1) hz3]
        simp only [View.readCov_unit_zero (S := S256x1) _ hz3, View.readAt_eq_ld, harg2.read_unread, harg3.read_unread, harg4.read_unread, harg6.read_unread, View.ld_unit_zero (S := S256x128) hz3, View.ld_unit_zero (S := S1x128) hz3, View.ld_unit_zero (S := S1x1) hz3, View.ld_unit_zero (S := S256x1) hz3])

end Cert.Kernel.Hand

end
-- ==== Proof.K.R3.Frame.lean ====
import proofs.«139585_j60120952209906_1_alg».proof.Proof.K.R3.Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def iblk3 (V : EntryV F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

variable (V : EntryV F) (c : Dev nD)

/-- The running maximum after step `n`: step 0 updates `k3_pay1`, every later step what the step before left. -/
def acc3 : (n : ℕ) → n < cfg3.N → Vec F S256x1 .f32
  | 0, hn => k3_pay2 (iblk3 V c 0 ⟨0, hn⟩) (iblk3 V c 1 ⟨0, hn⟩) k3_pay1
  | n + 1, hn => k3_pay2 (iblk3 V c 0 ⟨n + 1, hn⟩) (iblk3 V c 1 ⟨n + 1, hn⟩) (acc3 n (Nat.lt_of_succ_lt hn))

/-- After step `n`: the running maximum plus the bias, and the running maximum. -/
def outsAt3 (n : ℕ) (hn : n < cfg3.N) : Vec F S256x1 .f32 × Vec F S256x1 .f32 :=
  (k3_pay3 (acc3 V c n hn) (iblk3 V c 2 ⟨n, hn⟩), acc3 V c n hn)

theorem outsAt3_first (t : Fin cfg3.N) (h : (cfg3.grid.coords t 1).val = 0) :
    (outsAt3 V c t.val t.isLt).2 = k3_pay2 (iblk3 V c 0 t) (iblk3 V c 1 t) (k3_pay1 (F := F)) := by
  obtain ⟨n, hn⟩ := t
  obtain rfl : n = 0 := (coord3_1 ⟨n, hn⟩).symm.trans h
  rfl
theorem outsAt3_next (t : Fin cfg3.N) (h : (cfg3.grid.coords t 1).val ≠ 0) :
    (outsAt3 V c t.val t.isLt).2 = k3_pay2 (iblk3 V c 0 t) (iblk3 V c 1 t) (outsAt3 V c (t.val - 1) (Nat.lt_of_le_of_lt (Nat.sub_le _ _) t.isLt)).2 := by
  obtain ⟨n, hn⟩ := t
  cases n with
  | zero => exact absurd (coord3_1 ⟨0, hn⟩) h
  | succ n => rfl
theorem outsAt3_out (t : Fin cfg3.N) (h : (cfg3.grid.coords t 1).val + 1 = 8) :
    (outsAt3 V c t.val t.isLt).1 = k3_pay3 (outsAt3 V c t.val t.isLt).2 (iblk3 V c 2 t) := rfl

/-- Before step `n`: the region's invariant, from step 1 on with the running maximum at what step `n − 1` left. -/
def PhiS3 : (n : ℕ) → n ≤ cfg3.N → sProp 𝕄
  | 0, _ => Pipeline.ΦA spec3 c
  | n + 1, hn => PhiWith3 c (owns (c : Thread nD τ) scM3_0 fullShare (acc3 V c n hn))

def dat3 (V : EntryV F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := rfl
theorem after3_3 (t : Fin cfg3.N) : (dat3 V c).after 3 t = (outsAt3 V c t.val t.isLt).1 := rfl
theorem owed3 (t) : (dat3 V c).owed t = 0 := rfl
theorem share3 (w) : (dat3 V c).q w = fullShare := rfl
theorem recorded3 (t) : (dat3 V c).recorded t = Set.univ := rfl

/-- An input's block is what the body leaves of it, so it is there at every step: one argument for the three inputs. -/
theorem before3 (t : Fin cfg3.N) :
    (∀ d, (dat3 V c).before 0 t d = iblk3 V c 0 t) ∧ (∀ d, (dat3 V c).before 1 t d = iblk3 V c 1 t) ∧ (∀ d, (dat3 V c).before 2 t d = iblk3 V c 2 t) := by
  refine ⟨fun d => ?_, fun d => ?_, fun d => ?_⟩ <;>
    exact (dat3 V c).before_in_eq_fetched _ rfl (fun _ => rfl) (fun _ _ _ => rfl) (fun _ => rfl) t d

/-- Before step `t` the running maximum is at contents whose update at `t` is `acc3` at `t`. -/
theorem PhiS3_open (t : Fin cfg3.N) : (dat3 V c).Φ t.castSucc
    ⊢ iprop(∃ xs0, ⌜k3_pay2 (iblk3 V c 0 t) (iblk3 V c 1 t) (if cond3_0 (grid3.coords t) then k3_pay1 else xs0) = acc3 V c t.val t.isLt⌝ ∗ PhiWith3 c (owns (c : Thread nD τ) scM3_0 fullShare xs0)) := by
  obtain ⟨n, hn⟩ := t
  cases n with
  | zero =>
    show Pipeline.ΦA spec3 c ⊢ _
    rw [PhiA3_eq]; unfold PhiWith3
    iintro ⟨⟨⟨%d, HS0⟩, Hrest⟩, Hg⟩
    iexists d; isplitr; · ipureintro; rw [if_pos ((hcond3_0 _).mpr rfl)]; rfl
    iframe
  | succ n =>
    show PhiWith3 c (owns (c : Thread nD τ) scM3_0 fullShare (acc3 V c n (Nat.lt_of_succ_lt hn))) ⊢ _
    iintro H; iexists (acc3 V c n (Nat.lt_of_succ_lt hn)); isplitr; · ipureintro; rw [if_neg ((hcond3_0 _).not.mpr (Nat.succ_ne_zero n))]; rfl
    iexact H

def bodyPre3 (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

/-- After step `t` the output block is at the stored value where `cond3_1` holds, at its old contents elsewhere. -/
theorem leaves3_3 (t : Fin cfg3.N) (d) :
    owns (c : Thread nD τ) (ms3_3 t) fullShare (if cond3_1 (grid3.coords t) then k3_pay3 (acc3 V c t.val t.isLt) (iblk3 V c 2 t) else (dat3 V c).before 3 t d) ⊢ (dat3 V c).leavesExact 3 t := by
  by_cases h1 : cond3_1 (grid3.coords t)
  · rw [if_pos h1, show (dat3 V c).leavesExact 3 t = owns (c : Thread nD τ) (ms3_3 t) fullShare ((dat3 V c).after 3 t) from by
      unfold Dat.leavesExact; rw [liveAt3_3 t h1]]
    exact .rfl
  · rw [if_neg h1, Dat.leavesExact_idle (dat3 V c) 3 t (idleAt3_3 t h1).1 (idleAt3_3 t h1).2]
    iintro H; iexists _; iexact H

theorem sound_body3 (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2.1, (before3 V c t).2.2]
  rw [show (dat3 V c).owesAt () t.succ = (dat3 V c).owesAt () t.castSucc from rfl,
    show (dat3 V c).Φ t.succ = PhiWith3 c (owns (c : Thread nD τ) scM3_0 fullShare (acc3 V c t.val t.isLt)) from rfl,
    show (dat3 V c).leavesExact 0 t = owns (c : Thread nD τ) (ms3_0 t) fullShare (iblk3 V c 0 t) from by unfold Dat.leavesExact; rw [liveAt3 0 t (by decide)]; rfl,
    show (dat3 V c).leavesExact 1 t = owns (c : Thread nD τ) (ms3_1 t) fullShare (iblk3 V c 1 t) from by unfold Dat.leavesExact; rw [liveAt3 1 t (by decide)]; rfl,
    show (dat3 V c).leavesExact 2 t = owns (c : Thread nD τ) (ms3_2 t) fullShare (iblk3 V c 2 t) from by unfold Dat.leavesExact; rw [liveAt3 2 t (by decide)]; rfl]
  iintro ⟨HΦ, Ho, ⟨%d0, H0⟩, ⟨%d1, H1⟩, ⟨%d2, H2⟩, ⟨%d3, H3⟩⟩
  icases (PhiS3_open V c t) $$ HΦ with ⟨%xs0, %hxs, HP⟩
  unfold PhiWith3
  icases HP with ⟨⟨HS0, Hrest⟩, Hg⟩
  iapply (kernelRun3 c (grid3.coords t) _ _ _ _ _ (iblk3 V c 0 t) (iblk3 V c 1 t) (iblk3 V c 2 t) _ xs0 (excl3 t) Set.univ _)
  iframe H0 H1 H2 H3 HS0
  rw [hxs]
  iintro ⟨H0, H1, H2, H3, HS0⟩
  iframe HS0 Hrest Hg Ho H0 H1 H2
  iapply (leaves3_3 V c t d3); iexact H3

theorem body_obligation3 : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

theorem hout3 : (dat3 V c).Φ (Fin.last cfg3.N) ⊢ Pipeline.ΦA spec3 c := by
  rw [show (dat3 V c).Φ (Fin.last cfg3.N) = PhiWith3 c (owns (c : Thread nD τ) scM3_0 fullShare (acc3 V c 7 (by decide))) from rfl, PhiA3_eq]; unfold PhiWith3
  iintro ⟨⟨HS0, Hrest⟩, Hg⟩
  iframe Hrest Hg
  iexists _; iexact HS0

end Cert.Kernel.Hand

end
-- ==== Proof.K.Regs.lean ====
import proofs.«139585_j60120952209906_1_alg».proof.Proof.Gen.Kernel.Regions
import proofs.«139585_j60120952209906_1_alg».proof.Proof.K.R0.Frame
import proofs.«139585_j60120952209906_1_alg».proof.Proof.K.R1.Frame
import proofs.«139585_j60120952209906_1_alg».proof.Proof.K.R2.Frame
import proofs.«139585_j60120952209906_1_alg».proof.Proof.K.R3.Frame
import Idealize.ShloMosaic.Lib.Pipeline.Kit
import Idealize.ShloMosaic.Lib.Pipeline.RegionsLoop
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev E1 : EntryV F := fun c b => Gen.V1 m c b

def X2 (c : Dev nD) : Valuation τ sig (Elt F) :=
  Pipeline.withArrays spec0 c (Gen.V1 m c) fun w => (dat0 (E1 m) c).arrAt w cfg0.N

def outs₁ : Gen.Outs (F := F) := fun j r c =>
  match j with
  | 2 => X2 m c r
  | _ => m (c, r)

abbrev E3 : EntryV F := fun c b => Gen.V3 m (outs₁ m) c b

def X4 (c : Dev nD) : Valuation τ sig (Elt F) :=
  Pipeline.withArrays spec1 c (Gen.V3 m (outs₁ m) c) fun w => (dat1 (E3 m) c).arrAt w cfg1.N

def outs₂ : Gen.Outs (F := F) := fun j r c =>
  match j with
  | 2 => X2 m c r
  | 4 => X4 m c r
  | _ => m (c, r)

abbrev E5 : EntryV F := fun c b => Gen.V5 m (outs₂ m) c b

def X6 (c : Dev nD) : Valuation τ sig (Elt F) :=
  Pipeline.withArrays spec2 c (Gen.V5 m (outs₂ m) c) fun w => (dat2 (E5 m) c).arrAt w cfg2.N

def outs₃ : Gen.Outs (F := F) := fun j r c =>
  match j with
  | 2 => X2 m c r
  | 4 => X4 m c r
  | 6 => X6 m c r
  | _ => m (c, r)

abbrev E7 : EntryV F := fun c b => Gen.V7 m (outs₃ m) c b

def X8 (c : Dev nD) : Valuation τ sig (Elt F) :=
  Pipeline.withArrays spec3 c (Gen.V7 m (outs₃ m) c) fun w => (dat3 (E7 m) c).arrAt w cfg3.N

def outs : Gen.Outs (F := F) := fun j r c =>
  match j with
  | 2 => X2 m c r
  | 4 => X4 m c r
  | 6 => X6 m c r
  | 8 => X8 m c r
  | _ => m (c, r)

theorem outs_2 (c : Dev nD) : outs m 2 main_v1 c = (dat0 (E1 m) c).arrAt 3 cfg0.N :=
  show X2 m c _ = _ from Pipeline.withArrays_arr spec0 launch0.win.arr_inj c _ _ 3
theorem outs_4 (c : Dev nD) : outs m 4 main_v7 c = (dat1 (E3 m) c).arrAt 3 cfg1.N :=
  show X4 m c _ = _ from Pipeline.withArrays_arr spec1 launch1.win.arr_inj c _ _ 3
theorem outs_6 (c : Dev nD) : outs m 6 main_v13 c = (dat2 (E5 m) c).arrAt 3 cfg2.N :=
  show X6 m c _ = _ from Pipeline.withArrays_arr spec2 launch2.win.arr_inj c _ _ 3
theorem outs_8 (c : Dev nD) : outs m 8 main_v15 c = (dat3 (E7 m) c).arrAt 3 cfg3.N :=
  show X8 m c _ = _ from Pipeline.withArrays_arr spec3 launch3.win.arr_inj c _ _ 3

def pdats : (p : Fin 4) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 5 → Dev nD → sProp 𝕄 := fun _ c => R c

/-- A region whose arrays other than `o` are inputs runs from `V` to `V` with `o` set to its final contents `x`. -/
def reg (p : Fin 4) (kit : Pipeline.LaunchFacts (nD := nD) (τ := τ) cfgs p) (o : Fin (cfgs p).W)
    (V : Dev nD → Valuation τ sig (Elt F)) (x : (c : Dev nD) → Buf (Elt F) ((c : Thread nD τ).loc (Pipeline.arrRef (cfgs p).spec o)))
    (hio : ∀ w, w ≠ o → ((cfgs p).win w).isOut = false)
    (hbd : ∀ c, BodyObligation (pdats m p c) (defs₀ (F := F)) Variants.none () Set.univ)
    (howed : ∀ c t, (pdats m p c).owed t = 0)
    (hq : ∀ c w, (pdats m p c).q w = fullShare)
    (hA : ∀ c w, (pdats m p c).A w = V c (Pipeline.arrRef (cfgs p).spec w))
    (hrec : ∀ c, (pdats m p c).recorded 0 = Set.univ)
    (hΦi : ∀ c, Pipeline.ΦA (cfgs p).spec c ⊢ (pdats m p c).Φ 0)
    (hΦo : ∀ c, (pdats m p c).Φ (Fin.last (cfgs p).N) ⊢ Pipeline.ΦA (cfgs p).spec c)
    (hx : ∀ c, x c = (pdats m p c).arrAt o (cfgs p).N) :
    Pipeline.RegionSeg (pcfgs (F := F)) Gen.adm (pdats m) () defs₀ Variants.none L lv p where
  win := kit.win.to₀
  block_pos := kit.block_pos
  stage_whole := kit.stage_whole
  K := PEmpty
  osem k := k.elim
  ho := Pipeline.OwnSemFacts.none _
  hbody c := (hbd c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (Function.update (V c) (Pipeline.arrRef (cfgs p).spec o) (x c)) ∗ R c)
  X c := iprop(∃ r, prngReg c r)
  Y c := iprop(∃ r, prngReg c r)
  Z c := Pipeline.unscopedRest (cfgs p).spec c (fun b => V c b)
  hentry c := by
    rw [Pipeline.ownSems0_none]
    have hsplit := Pipeline.arrays_of_unscopedBufs (p := p) (pcfgs (F := F)) Gen.adm (pdats m) kit.win kit.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c]; trivial)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    refine (hΦo c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm kit.win kit.arr_whole c (pdats m) ((pdats m p c).share_full (hq c))
      (fun b => V c b) (fun b => Function.update (V c) (Pipeline.arrRef (cfgs p).spec o) (x c) b) ((pdats m p c).arrAt · (cfgs p).N)
      (fun w => if h : w = o then by subst h; exact ((Function.update_self _ _ (V c)).trans (hx c)).symm else
        ((pdats m p c).arrAt_in w (hio w h) _).trans ((hA c w).trans (Function.update_of_ne (StableHlo.devRef_ne_of_ne fun e => h (kit.win.arr_inj e)) ..).symm))
      (fun b hb => Function.update_of_ne (StableHlo.devRef_ne_of_ne fun e => hb (Finset.mem_image.mpr ⟨o, Finset.mem_univ _, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

def reg0 : Pipeline.RegionSeg (pcfgs (F := F)) Gen.adm (pdats m) () defs₀ Variants.none L lv 0 :=
  reg m 0 launch0 (3 : Fin 4) (Gen.V1 m) (outs m 2 main_v1) (by decide) (body_obligation0 _) (owed0 _) (share0 _) (A_eq0 _) (recorded0 _ · 0) (hin0 _) (hout0 _) (outs_2 m)
def reg1 : Pipeline.RegionSeg (pcfgs (F := F)) Gen.adm (pdats m) () defs₀ Variants.none L lv 1 :=
  reg m 1 launch1 (3 : Fin 4) (Gen.V3 m (outs m)) (outs m 4 main_v7) (by decide) (body_obligation1 _) (owed1 _) (share1 _) (A_eq1 _) (recorded1 _ · 0) (hin1 _) (hout1 _) (outs_4 m)
def reg2 : Pipeline.RegionSeg (pcfgs (F := F)) Gen.adm (pdats m) () defs₀ Variants.none L lv 2 :=
  reg m 2 launch2 (3 : Fin 4) (Gen.V5 m (outs m)) (outs m 6 main_v13) (by decide) (body_obligation2 _) (owed2 _) (share2 _) (A_eq2 _) (recorded2 _ · 0) (hin2 _) (hout2 _) (outs_6 m)
def reg3 : Pipeline.RegionSeg (pcfgs (F := F)) Gen.adm (pdats m) () defs₀ Variants.none L lv 3 :=
  reg m 3 launch3 (3 : Fin 4) (Gen.V7 m (outs m)) (outs m 8 main_v15) (by decide) (body_obligation3 _) (owed3 _) (share3 _) (A_eq3 _) (recorded3 _ · 0) (hin3 _) (hout3 _) (outs_8 m)

abbrev u₀ : UR sig nD τ := initOf (Pipeline.cells cfgs Gen.cellOf_inj) (Pipeline.launchToks cfgs Gen.cellOf_inj)

abbrev G : Dev nD → sProp 𝕄 := fun _ => iprop(emp)

theorem hu₀ : (ownU u₀ : sProp 𝕄) ⊢ |={Set.univ}=> iprop(BI.own (emb₁ (initOf (Pipeline.cells cfgs Gen.cellOf_inj) (Pipeline.launchToks cfgs Gen.cellOf_inj))) ∗ bigSep Finset.univ (G (F := F))) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ G (F := F) c)) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : E (F := F) 4 c ⊢ (iprop(∃ W, owes (c : Thread nD τ) (0 : CellTallies nD τ sig Unit) W) : sProp 𝕄) := by
  iintro ⟨-, HO⟩; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () Variants.none L lv (fun _ _ => rfl) ρ (outs m) (pdats m) 0 G u₀ hu₀ E (hE0 ρ) hE4
    (reg0 m) (fun _ => .rfl) (fun _ => .rfl) (reg1 m) (fun _ => .rfl) (fun _ => .rfl)
    (reg2 m) (fun _ => .rfl) (fun _ => .rfl) (reg3 m) (fun _ => .rfl) (fun _ => .rfl)

end Cert.Kernel.Hand

end
-- ==== Proof.KI.Entry.lean ====
import proofs.«139585_j60120952209906_1_alg».proof.Proof.Gen.KernelIdeal.Launch

noncomputable section

namespace Cert.KernelIdeal.Hand

open Idealize.ShloMosaic Idealize.ShloMosaic.TcCoe Idealize.SL.Sem
open Cert.KernelIdeal

/-- A core's TensorCore buffers, each at its contents when a region is entered. -/
abbrev EntryV (F : FTy → Type) : Type := (c : Dev nD) → (b : Ref sig .tc) → Buf (Elt F) ((c : Thread nD τ).loc b)

end Cert.KernelIdeal.Hand

end
-- ==== Proof.KI.R0.Runs.lean ====
import proofs.«139585_j60120952209906_1_alg».proof.Proof.Gen.KernelIdeal.Skeleton
import proofs.«139585_j60120952209906_1_alg».proof.Proof.Gen.KernelIdeal.Points
import proofs.«139585_j60120952209906_1_alg».proof.Proof.KI.Entry
import Idealize.ShloMosaic.Lib.Pipeline.FrameSuffix
import Idealize.ShloMosaic.Lib.Pipeline.Value
import Idealize.ShloMosaic.Lib.Ring

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.ProofMode Idealize.SL.Sem
open Cert.KernelIdeal Cert.KernelIdeal.Gen

variable {F : FTy → Type} [FloatOps F]

-- Window w's block at point t, read off the array the region starts from.
def iblk0 (V : EntryV F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The contraction axis has one step: every point is both its first and its last.
theorem hcond0 : ∀ t : Fin cfg0.N, Scalar.cmpi .ne (Scalar.extui (Scalar.cmpi .eq (BitVec.ofNat 32 (grid0.coords t 1).val) 0#32)) 0#32 = 1#1 ∧ k0_cond2 (grid0.coords t) = 1#1 := by
  decide +kernel

theorem coord1_zero0 : ∀ t : Fin cfg0.N, (cfg0.grid.coords t 1).val = 0 := by decide +kernel

theorem liveAt0 : ∀ (w : Fin 4) (t : Fin cfg0.N), idle0 w (grid0.coords t) = false := by decide +kernel

theorem hz : (![0, 0] : Fin 2 → ℕ) = fun _ => 0 := by funext a; fin_cases a <;> rfl

-- One pass of the body: the accumulator ends at the update of the reset value by the two input blocks,
-- the output block at that plus the bias block.
theorem kernelRun0_D (c : Dev nD) (t : Fin cfg0.N) (x0 : Vec F S256x3 .f32) (x1 : Vec F S128x3 .f32) (x2 : Vec F S1x128 .f32) (E : Set ℕ) (K : PUnit → sProp (MT nD τ sig Unit (Elt F) ℕ (UR sig nD τ) ℕ)) :
    iprop(owns c (st0_0 t) fullShare x0 ∗ owns c (st0_1 t) fullShare x1 ∗ owns c (st0_2 t) fullShare x2
        ∗ (∃ d, owns c (st0_3 t) fullShare d) ∗ (∃ d, owns c (Memref.whole cc0_scratch0) fullShare d)
        ∗ (iprop(owns c (st0_0 t) fullShare x0 ∗ owns c (st0_1 t) fullShare x1 ∗ owns c (st0_2 t) fullShare x2
            ∗ owns c (st0_3 t) fullShare (k0_pay3 (k0_pay2 x0 x1 k0_pay1) x2) ∗ owns c (Memref.whole cc0_scratch0) fullShare (k0_pay2 x0 x1 k0_pay1)) -∗ K ⟨⟩))
      ⊢ wp frame (wpE (defs₀ (F := F)) Variants.none c none) E (bodyAt0 t) K := by
  simp only [bodyAt0, cc0__tropical_kernel_eq_skeleton]; unfold cc0__tropical_kernel_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  sl_exec (disch := first | exact (hcond0 t).1 | exact (hcond0 t).2)
  sl_step
  iapply Hk
  isplitl [H0]; swap; isplitl [H1]; swap; isplitl [H2]; swap; isplitl [H3]
  all_goals iexists _; isplitr; swap; · iassumption
  all_goals ipureintro; try assumption
  all_goals
    rw [View.read_writes_eq_canon _ _ _ (View.cover_of_tiledL _ S256x128.size (by sl_kernel_rfl))]
    sl_unfold_words
    rw [View.readCov_eq_canon_ld _ _ _ (View.cover_of_tiledL _ S256x128.size (by sl_kernel_rfl))]
    simp only [View.canon_cons_unit_zero (S := S256x128) hz, View.readCov_unit_zero (S := S256x128) _ hz, View.readAt_eq_ld, hf0, hf1, hf2,
      View.ld_unit_zero (S := S256x128) hz, View.ld_unit_zero (S := S256x3) hz, View.ld_unit_zero (S := S128x3) hz, View.ld_unit_zero (S := S1x128) hz]

end Cert.KernelIdeal.Hand

end
-- ==== Proof.KI.R0.Frame.lean ====
import proofs.«139585_j60120952209906_1_alg».proof.Proof.KI.R0.Runs

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : EntryV F) (c : Dev nD) (t : Fin cfg0.N)

-- What point n leaves: the output block, and the accumulator it is computed from.
def outsAt0 : (n : ℕ) → n < cfg0.N → Vec F S256x128 .f32 × Vec F S256x128 .f32 :=
  fun n hn => let s := k0_pay2 (iblk0 V c 0 ⟨n, hn⟩) (iblk0 V c 1 ⟨n, hn⟩) k0_pay1
    (k0_pay3 s (iblk0 V c 2 ⟨n, hn⟩), s)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ _ := Pipeline.ΦA spec0 c
  q _ := fullShare
  owed _ := 0

theorem A_eq0 (w : Fin cfg0.W) : (dat0 V c).A w = V c (Pipeline.arrRef spec0 w) := rfl
theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = (outsAt0 V c t.val t.isLt).1 := rfl
theorem owed0 (s) : (dat0 V c).owed s = 0 := rfl
theorem share0 (w) : (dat0 V c).q w = fullShare := rfl
theorem recorded0 (s) : (dat0 V c).recorded s = Set.univ := rfl

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d
theorem before0_2 (d) : (dat0 V c).before 2 t d = iblk0 V c 2 t :=
  (dat0 V c).before_in_eq_fetched 2 rfl (fun _ => rfl) (fun _ _ _ => rfl) (fun _ => rfl) t d

theorem Phi0 (x) : (dat0 V c).Φ x = Pipeline.ΦA spec0 c := rfl

-- At every point the body takes the invariant and the input blocks to the invariant and the blocks dat0 names.
theorem body_obligation0 : BodyObligation (dat0 V c) (defs₀ (F := F)) Variants.none () Set.univ := fun t => by
  simp only [bigSep_W0, liveAt0, before0_0, before0_1, before0_2, after0_0, after0_1, after0_2, Phi0, Pipeline.ΦA, scopedRest0_split, ← owns_whole]
  iintro ⟨⟨⟨HS0, Hrest⟩, Hg⟩, Ho, ⟨%d0, H0⟩, ⟨%d1, H1⟩, ⟨%d2, H2⟩, ⟨%d3, H3⟩⟩
  iapply kernelRun0_D c t _ _ _ _ _
  iframe H0 H1 H2 HS0
  isplitl [H3]; · iexists _; iexact H3
  iintro ⟨H0, H1, H2, H3, HS0⟩
  iframe
  isplitl [HS0]; · iexists _; iexact HS0
  isplitl [Ho]; · iexact Ho
  iexact H3

theorem hin0 : Pipeline.ΦA spec0 c ⊢ (dat0 V c).Φ 0 := .refl
theorem hout0 : (dat0 V c).Φ (Fin.last cfg0.N) ⊢ Pipeline.ΦA spec0 c := .refl

theorem outsAt0_first (h : (cfg0.grid.coords t 1).val = 0) :
    (outsAt0 V c t.val t.isLt).2 = k0_pay2 (iblk0 V c 0 t) (iblk0 V c 1 t) k0_pay1 := rfl

theorem outsAt0_next (h : (cfg0.grid.coords t 1).val ≠ 0) :
    (outsAt0 V c t.val t.isLt).2 = k0_pay2 (iblk0 V c 0 t) (iblk0 V c 1 t) (outsAt0 V c (t.val - 1) (Nat.lt_of_le_of_lt (Nat.sub_le _ _) t.isLt)).2 :=
  absurd (coord1_zero0 t) h

theorem outsAt0_out (h : (cfg0.grid.coords t 1).val + 1 = 1) :
    (outsAt0 V c t.val t.isLt).1 = k0_pay3 (outsAt0 V c t.val t.isLt).2 (iblk0 V c 2 t) := rfl

end Cert.KernelIdeal.Hand

end
-- ==== Proof.KI.R1.Runs.lean ====
import proofs.«139585_j60120952209906_1_alg».proof.Proof.Gen.KernelIdeal.Launch
import proofs.«139585_j60120952209906_1_alg».proof.Proof.Gen.KernelIdeal.Skeleton
import proofs.«139585_j60120952209906_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem coord1_1 : ∀ t : Fin cfg1.N, (cfg1.grid.coords t 1).val = t.val % 8 :=
  (by decide +kernel : ∀ t : Fin grid1.N, (grid1.coords t 1).val = t.val % 8)

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

abbrev ms1_0 (t : Fin cfg1.N) : Memref sig .tc .vmem S256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)

abbrev scM1_0 : Memref sig .tc .vmem S256x128 .f32 := Memref.whole cc1_scratch0

/-- The launch's invariant with the accumulator's ownership `P` in the place of "owned at some contents". -/
def PhiWith1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) : (Pipeline.ΦA spec1 c : sProp 𝕄) = PhiWith1 c iprop(∃ d, owns (c : Thread nD τ) scM1_0 fullShare d) := by
  unfold Pipeline.ΦA PhiWith1; rw [scopedRest1_split]; simp only [scM1_0, owns_whole]; try rfl

theorem skel1_equations_realized : True := by
  have := @cc1__tropical_kernel_skel.eq_1
  have := @cc1__tropical_kernel_skel.congr_simp
  trivial

end Cert.KernelIdeal.Hand

end
-- ==== Proof.KI.R1.Run.lean ====
import proofs.«139585_j60120952209906_1_alg».proof.Proof.KI.R1.Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0, 0] : Fin 2 → ℕ) = fun _ => 0 := by
  funext a; fin_cases a <;> rfl

variable (c : Dev nD) (i : grid1.Coords)
  (arg2 : Memref sig .tc .vmem S256x128 .f32) (harg2 : arg2.IsWhole) (arg3 : Memref sig .tc .vmem S128x128 .f32) (harg3 : arg3.IsWhole)
  (arg4 : Memref sig .tc .vmem S1x128 .f32) (harg4 : arg4.IsWhole) (arg5 : Memref sig .tc .vmem S256x128 .f32) (harg5 : arg5.IsWhole)
  (arg6 : Memref sig .tc .vmem S256x128 .f32) (harg6 : arg6.IsWhole)
  (x0 : Vec F S256x128 .f32) (x1 : Vec F S128x128 .f32) (x2 : Vec F S1x128 .f32)

/-- First contraction step: the accumulator, entered at anything, is reset and leaves at the first partial max-plus product. -/
theorem run1_A (hc0 : cond1_0 i) (hc1 : ¬cond1_1 i) (xi3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 (k1_pay1 (F := F)))) -∗ K ⟨⟩))
      ⊢ wp frame (wpE (defs₀ (F := F)) Variants.none c none) E (cc1__tropical_kernel i arg2 harg2 arg3 harg3 arg4 harg4 arg5 harg5 arg6 harg6) K := by
  simp only [cc1__tropical_kernel_eq_skeleton]; unfold cc1__tropical_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS0
  ipureintro
  rw [View.read_writes_eq_canon _ _ _ (View.cover_of_tiledL _ S256x128.size (by sl_kernel_rfl))]
  sl_unfold_words
  rw [View.canon_cons_unit_zero (S := S256x128) hz1, View.readCov_unit_zero (S := S256x128) _ hz1]
  simp only [View.readAt_eq_ld, harg2.read_unread, harg3.read_unread, View.ld_unit_zero (S := S256x128) hz1, View.ld_unit_zero (S := S128x128) hz1, View.ld_unit_zero (S := S1x128) hz1]

/-- A middle step: the accumulator leaves at its update over what it was entered with. -/
theorem run1_B (hc0 : ¬cond1_0 i) (hc1 : ¬cond1_1 i) (xs0 xi3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 xs0)) -∗ K ⟨⟩))
      ⊢ wp frame (wpE (defs₀ (F := F)) Variants.none c none) E (cc1__tropical_kernel i arg2 harg2 arg3 harg3 arg4 harg4 arg5 harg5 arg6 harg6) K := by
  simp only [cc1__tropical_kernel_eq_skeleton]; unfold cc1__tropical_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS0
  ipureintro
  rw [View.read_writes_eq_canon _ _ _ (View.cover_of_tiledL _ S256x128.size (by sl_kernel_rfl))]
  sl_unfold_words
  rw [View.canon_unit_zero (S := S256x128) hz1]
  simp only [View.readAt_eq_ld, harg2.read_unread, harg3.read_unread, harg6.read_unread, View.ld_unit_zero (S := S256x128) hz1, View.ld_unit_zero (S := S128x128) hz1, View.ld_unit_zero (S := S1x128) hz1]

/-- Last step: the same update, and the output block, entered at anything, leaves at the updated accumulator plus the bias row. -/
theorem run1_C (hc0 : ¬cond1_0 i) (hc1 : cond1_1 i) (xs0 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 xs0) x2) ∗ owns (c : Thread nD τ) arg6 fullShare (k1_pay2 x0 x1 xs0)) -∗ K ⟨⟩))
      ⊢ wp frame (wpE (defs₀ (F := F)) Variants.none c none) E (cc1__tropical_kernel i arg2 harg2 arg3 harg3 arg4 harg4 arg5 harg5 arg6 harg6) K := by
  simp only [cc1__tropical_kernel_eq_skeleton]; unfold cc1__tropical_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S256x128.size (by sl_kernel_rfl))]
    sl_unfold_words
    rw [View.canon_unit_zero (S := S256x128) hz1]
    simp only [View.readAt_eq_ld, harg2.read_unread, harg3.read_unread, harg4.read_unread, harg6.read_unread, View.ld_unit_zero (S := S256x128) hz1, View.ld_unit_zero (S := S128x128) hz1, View.ld_unit_zero (S := S1x128) hz1, View.readCov_unit_zero (S := S256x128) _ hz1]
  iexists _; isplitr; swap; · iexact HS0
  ipureintro
  rw [View.read_writes_eq_canon _ _ _ (View.cover_of_tiledL _ S256x128.size (by sl_kernel_rfl))]
  sl_unfold_words
  rw [View.canon_unit_zero (S := S256x128) hz1]
  simp only [View.readAt_eq_ld, harg2.read_unread, harg3.read_unread, harg6.read_unread, View.ld_unit_zero (S := S256x128) hz1, View.ld_unit_zero (S := S128x128) hz1, View.ld_unit_zero (S := S1x128) hz1]

end Cert.KernelIdeal.Hand

end
-- ==== Proof.KI.R1.Frame.lean ====
import proofs.«139585_j60120952209906_1_alg».proof.Proof.KI.R1.Run
import proofs.«139585_j60120952209906_1_alg».proof.Proof.KI.Entry
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def iblk1 (V : EntryV F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: the update over the reset value at a first contraction step, else over the point before. -/
def acc1 (V : EntryV F) (c : Dev nD) : (n : ℕ) → n < cfg1.N → Vec F S256x128 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 8 = 0 then k1_pay1 (F := F) else acc1 V c n (Nat.lt_of_succ_lt hn))

theorem acc1_step (V : EntryV F) (c : Dev nD) (t : Fin cfg1.N) :
    acc1 V c t.val t.isLt = k1_pay2 (iblk1 V c 0 t) (iblk1 V c 1 t) (if t.val % 8 = 0 then k1_pay1 (F := F) else (acc1 V c (t.val - 1) (Nat.lt_of_le_of_lt (Nat.sub_le _ _) t.isLt))) := by
  obtain ⟨n, hn⟩ := t
  cases n with
  | zero => exact congrArg (k1_pay2 (iblk1 V c 0 ⟨0, hn⟩) (iblk1 V c 1 ⟨0, hn⟩)) (if_pos (Nat.zero_mod 8)).symm
  | succ n => rfl

/-- What the output block (first) and the accumulator (second) hold after point `n`; the first is read only at a last step. -/
def outsAt1 (V : EntryV F) (c : Dev nD) (n : ℕ) (hn : n < cfg1.N) : Vec F S256x128 .f32 × Vec F S256x128 .f32 :=
  (k1_pay3 (acc1 V c n hn) (iblk1 V c 2 ⟨n, hn⟩), acc1 V c n hn)

theorem outsAt1_first (V : EntryV F) (c : Dev nD) (t : Fin cfg1.N) (h : (cfg1.grid.coords t 1).val = 0) :
    (outsAt1 V c t.val t.isLt).2 = k1_pay2 (iblk1 V c 0 t) (iblk1 V c 1 t) (k1_pay1 (F := F)) :=
  (acc1_step V c t).trans (congrArg _ (if_pos ((coord1_1 t).symm.trans h)))

theorem outsAt1_next (V : EntryV F) (c : Dev nD) (t : Fin cfg1.N) (h : (cfg1.grid.coords t 1).val ≠ 0) :
    (outsAt1 V c t.val t.isLt).2 = k1_pay2 (iblk1 V c 0 t) (iblk1 V c 1 t) (outsAt1 V c (t.val - 1) (Nat.lt_of_le_of_lt (Nat.sub_le _ _) t.isLt)).2 :=
  (acc1_step V c t).trans (congrArg _ (if_neg fun e => h ((coord1_1 t).trans e)))

theorem outsAt1_out (V : EntryV F) (c : Dev nD) (t : Fin cfg1.N) (h : (cfg1.grid.coords t 1).val + 1 = 8) :
    (outsAt1 V c t.val t.isLt).1 = k1_pay3 (outsAt1 V c t.val t.isLt).2 (iblk1 V c 2 t) := rfl

/-- Before the first point the launch's invariant; afterwards the accumulator at what the point before left. -/
def PhiS1 (V : EntryV F) (c : Dev nD) : (n : ℕ) → n ≤ cfg1.N → sProp 𝕄
  | 0, _ => Pipeline.ΦA spec1 c
  | n + 1, hn => PhiWith1 c (owns (c : Thread nD τ) scM1_0 fullShare (acc1 V c n hn))

theorem PhiS1_pos (V : EntryV F) (c : Dev nD) (n : ℕ) (h : n ≤ cfg1.N) (hz : n ≠ 0) :
    PhiS1 V c n h = PhiWith1 c (owns (c : Thread nD τ) scM1_0 fullShare (acc1 V c (n - 1) (by omega))) := by
  cases n with
  | zero => exact absurd rfl hz
  | succ n => rfl

def dat1 (V : EntryV F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (V : EntryV F) (c : Dev nD) (w : Fin cfg1.W) : (dat1 V c).A w = V c (Pipeline.arrRef spec1 w) := rfl
theorem after1_3 (V : EntryV F) (c : Dev nD) (t : Fin cfg1.N) : (dat1 V c).after 3 t = (outsAt1 V c t.val t.isLt).1 := rfl
theorem owed1 (V : EntryV F) (c : Dev nD) (t) : (dat1 V c).owed t = 0 := rfl
theorem share1 (V : EntryV F) (c : Dev nD) (w) : (dat1 V c).q w = fullShare := rfl
theorem recorded1 (V : EntryV F) (c : Dev nD) (t) : (dat1 V c).recorded t = Set.univ := rfl

/-- The body leaves each input's block in place, so the block is there at every point: one argument for the three inputs. -/
theorem before1 (V : EntryV F) (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) := by
  refine ⟨fun d => ?_, fun d => ?_, fun d => ?_⟩ <;>
    exact ((dat1 V c).before_in_eq_fetched _ rfl (fun _ => rfl) (fun _ _ _ => rfl) (fun _ => rfl) t d).trans rfl

/-- Whatever the invariant holds of the accumulator, it gives the launch's back. -/
theorem Phi_weak1 (V : EntryV F) (c : Dev nD) (t : Fin (cfg1.N + 1)) : (dat1 V c).Φ t ⊢ Pipeline.ΦA spec1 c := by
  obtain ⟨n, hn⟩ := t
  cases n with
  | zero => exact Idealize.SL.BI.Entails.refl _
  | succ n =>
    show PhiWith1 c _ ⊢ _
    rw [PhiA1_eq]; unfold PhiWith1
    iintro ⟨⟨HS0, HR⟩, Hg⟩
    isplitl [HS0 HR]
    · isplitl [HS0]
      · iexists _; iexact HS0
      iexact HR
    iexact Hg

theorem hin1 (V : EntryV F) (c : Dev nD) : Pipeline.ΦA spec1 c ⊢ (dat1 V c).Φ 0 := Idealize.SL.BI.Entails.refl _
theorem hout1 (V : EntryV F) (c : Dev nD) : (dat1 V c).Φ (Fin.last cfg1.N) ⊢ Pipeline.ΦA spec1 c := Phi_weak1 V c _

def bodyPre1 (V : EntryV F) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (V : EntryV F) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at any point: the point's position in its run of eight contraction steps says which case it is in. -/
theorem sound_body1 (V : EntryV F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2]
  rw [show (dat1 V c).owesAt () t.succ = (dat1 V c).owesAt () t.castSucc from rfl,
    show (dat1 V c).Φ t.succ = PhiWith1 c (owns (c : Thread nD τ) scM1_0 fullShare (acc1 V c t.val t.isLt)) from rfl, acc1_step,
    show (dat1 V c).leavesExact 0 t = owns (c : Thread nD τ) (ms1_0 t) fullShare (iblk1 V c 0 t) from by unfold Dat.leavesExact; rw [liveAt1_0 t]; rfl,
    show (dat1 V c).leavesExact 1 t = owns (c : Thread nD τ) (ms1_1 t) fullShare (iblk1 V c 1 t) from by unfold Dat.leavesExact; rw [liveAt1_1 t]; rfl,
    show (dat1 V c).leavesExact 2 t = owns (c : Thread nD τ) (ms1_2 t) fullShare (iblk1 V c 2 t) from by unfold Dat.leavesExact; rw [liveAt1_2 t]; rfl]
  by_cases h0 : t.val % 8 = 0
  · have hc0 := (hcond1_0 t).mpr h0
    have hc1 : ¬cond1_1 (grid1.coords t) := fun h => by have := (hcond1_1 t).mp h; omega
    rw [if_pos h0, Dat.leavesExact_idle (dat1 V c) 3 t (idleAt1_3_A t hc0 hc1) (noFlush1_3_A t hc0 hc1)]
    refine (sep_mono_left (Phi_weak1 V c t.castSucc)).trans ?_
    rw [PhiA1_eq]; unfold PhiWith1
    iintro ⟨⟨⟨⟨%ds, HS0⟩, HR⟩, Hg⟩, Ho, ⟨%d0, H0⟩, ⟨%d1, H1⟩, ⟨%d2, H2⟩, ⟨%d3, H3⟩⟩
    iapply (run1_A c (grid1.coords t) _ _ _ _ _ _ _ _ _ _ (iblk1 V c 0 t) (iblk1 V c 1 t) (iblk1 V c 2 t) hc0 hc1 _ Set.univ _)
    iframe H0 H1 H2 H3
    isplitl [HS0]; · iexists _; iexact HS0
    iintro ⟨H0, H1, H2, H3, HS0⟩
    iframe HS0 HR Hg Ho H0 H1 H2
    iexists _; iexact H3
  · have hc0 : ¬cond1_0 (grid1.coords t) := fun h => h0 ((hcond1_0 t).mp h)
    have hz : t.val ≠ 0 := fun e => h0 (e ▸ Nat.zero_mod 8)
    rw [if_neg h0, show (dat1 V c).Φ t.castSucc = PhiS1 V c t.val (Nat.le_of_lt t.isLt) from rfl, PhiS1_pos V c _ _ hz]
    unfold PhiWith1
    by_cases h1 : t.val % 8 = 7
    · have hc1 := (hcond1_1 t).mpr h1
      rw [show (dat1 V c).leavesExact 3 t = owns (c : Thread nD τ) (ms1_3 t) fullShare ((dat1 V c).after 3 t) from by
        unfold Dat.leavesExact; rw [liveAt1_3_C t hc0 hc1], after1_3]
      rw [show (outsAt1 V c t.val t.isLt).1 = k1_pay3 (acc1 V c t.val t.isLt) (iblk1 V c 2 t) from rfl, acc1_step, if_neg h0]
      iintro ⟨⟨⟨HS0, HR⟩, Hg⟩, Ho, ⟨%d0, H0⟩, ⟨%d1, H1⟩, ⟨%d2, H2⟩, ⟨%d3, H3⟩⟩
      iapply (run1_C c (grid1.coords t) _ _ _ _ _ _ _ _ _ _ (iblk1 V c 0 t) (iblk1 V c 1 t) (iblk1 V c 2 t) hc0 hc1 _ Set.univ _)
      iframe H0 H1 H2 HS0
      isplitl [H3]; · iexists _; iexact H3
      iintro ⟨H0, H1, H2, H3, HS0⟩
      iframe
    · have hc1 : ¬cond1_1 (grid1.coords t) := fun h => h1 ((hcond1_1 t).mp h)
      rw [Dat.leavesExact_idle (dat1 V c) 3 t (idleAt1_3_B t hc0 hc1) (noFlush1_3_B t hc0 hc1)]
      iintro ⟨⟨⟨HS0, HR⟩, Hg⟩, Ho, ⟨%d0, H0⟩, ⟨%d1, H1⟩, ⟨%d2, H2⟩, ⟨%d3, H3⟩⟩
      iapply (run1_B c (grid1.coords t) _ _ _ _ _ _ _ _ _ _ (iblk1 V c 0 t) (iblk1 V c 1 t) (iblk1 V c 2 t) hc0 hc1 _ _ Set.univ _)
      iframe H0 H1 H2 H3 HS0
      iintro ⟨H0, H1, H2, H3, HS0⟩
      iframe HS0 HR Hg Ho H0 H1 H2
      iexists _; iexact H3

theorem body_obligation1 (V : EntryV F) (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.Runs.lean ====
import proofs.«139585_j60120952209906_1_alg».proof.Proof.Gen.KernelIdeal.Launch
import proofs.«139585_j60120952209906_1_alg».proof.Proof.Gen.KernelIdeal.Skeleton
import proofs.«139585_j60120952209906_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem coord2_1 : ∀ t : Fin cfg2.N, (cfg2.grid.coords t 1).val = t.val % 8 :=
  (by decide +kernel : ∀ t : Fin grid2.N, (grid2.coords t 1).val = t.val % 8)

theorem idleAt2_3_A : ∀ t : Fin cfg2.N, cond2_0 (grid2.coords t) → ¬cond2_1 (grid2.coords t) → cfg2.idle 3 (grid2.coords t) = true := by decide +kernel

theorem noFlush2_3_A : ∀ t : Fin cfg2.N, cond2_0 (grid2.coords t) → ¬cond2_1 (grid2.coords t) → (cfg2.win 3).flush t = false := by decide +kernel

theorem idleAt2_3_B : ∀ t : Fin cfg2.N, ¬cond2_0 (grid2.coords t) → ¬cond2_1 (grid2.coords t) → cfg2.idle 3 (grid2.coords t) = true := by decide +kernel

theorem noFlush2_3_B : ∀ t : Fin cfg2.N, ¬cond2_0 (grid2.coords t) → ¬cond2_1 (grid2.coords t) → (cfg2.win 3).flush t = false := by decide +kernel

theorem liveAt2_3_C : ∀ t : Fin cfg2.N, ¬cond2_0 (grid2.coords t) → cond2_1 (grid2.coords t) → cfg2.idle 3 (grid2.coords t) = false := by decide +kernel

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

abbrev ms2_0 (t : Fin cfg2.N) : Memref sig .tc .vmem S256x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x128 .f32 := win2_3.stage (cfg2.slots t 3)
abbrev hs2_3 (t : Fin cfg2.N) : (ms2_3 t).IsWhole := hstage2_3 ((cfg2.slots t 3).cast nbuf2_3)

abbrev scM2_0 : Memref sig .tc .vmem S256x128 .f32 := Memref.whole cc2_scratch0

/-- The launch's invariant with the accumulator's ownership `P` in the place of "owned at some contents". -/
def PhiWith2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = PhiWith2 c iprop(∃ d, owns (c : Thread nD τ) scM2_0 fullShare d) := by
  unfold Pipeline.ΦA PhiWith2; rw [scopedRest2_split]; simp only [scM2_0, owns_whole]; try rfl

theorem skel2_equations_realized : True := by
  have := @cc2__tropical_kernel_skel.eq_1
  have := @cc2__tropical_kernel_skel.congr_simp
  trivial

end Cert.KernelIdeal.Hand

end
-- ==== Proof.KI.R2.Run.lean ====
import proofs.«139585_j60120952209906_1_alg».proof.Proof.KI.R2.Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by
  funext a; fin_cases a <;> rfl

variable (c : Dev nD) (i : grid2.Coords)
  (arg2 : Memref sig .tc .vmem S256x128 .f32) (harg2 : arg2.IsWhole) (arg3 : Memref sig .tc .vmem S128x128 .f32) (harg3 : arg3.IsWhole)
  (arg4 : Memref sig .tc .vmem S1x128 .f32) (harg4 : arg4.IsWhole) (arg5 : Memref sig .tc .vmem S256x128 .f32) (harg5 : arg5.IsWhole)
  (arg6 : Memref sig .tc .vmem S256x128 .f32) (harg6 : arg6.IsWhole)
  (x0 : Vec F S256x128 .f32) (x1 : Vec F S128x128 .f32) (x2 : Vec F S1x128 .f32)

/-- First contraction step: the accumulator, entered at anything, is reset and leaves at the first partial max-plus product. -/
theorem run2_A (hc0 : cond2_0 i) (hc1 : ¬cond2_1 i) (xi3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 x0 x1 (k2_pay1 (F := F)))) -∗ K ⟨⟩))
      ⊢ wp frame (wpE (defs₀ (F := F)) Variants.none c none) E (cc2__tropical_kernel i arg2 harg2 arg3 harg3 arg4 harg4 arg5 harg5 arg6 harg6) K := by
  simp only [cc2__tropical_kernel_eq_skeleton]; unfold cc2__tropical_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS0
  ipureintro
  rw [View.read_writes_eq_canon _ _ _ (View.cover_of_tiledL _ S256x128.size (by sl_kernel_rfl))]
  sl_unfold_words
  rw [View.canon_cons_unit_zero (S := S256x128) hz2, View.readCov_unit_zero (S := S256x128) _ hz2]
  simp only [View.readAt_eq_ld, harg2.read_unread, harg3.read_unread, View.ld_unit_zero (S := S256x128) hz2, View.ld_unit_zero (S := S128x128) hz2, View.ld_unit_zero (S := S1x128) hz2]

/-- A middle step: the accumulator leaves at its update over what it was entered with. -/
theorem run2_B (hc0 : ¬cond2_0 i) (hc1 : ¬cond2_1 i) (xs0 xi3 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 x0 x1 xs0)) -∗ K ⟨⟩))
      ⊢ wp frame (wpE (defs₀ (F := F)) Variants.none c none) E (cc2__tropical_kernel i arg2 harg2 arg3 harg3 arg4 harg4 arg5 harg5 arg6 harg6) K := by
  simp only [cc2__tropical_kernel_eq_skeleton]; unfold cc2__tropical_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS0
  ipureintro
  rw [View.read_writes_eq_canon _ _ _ (View.cover_of_tiledL _ S256x128.size (by sl_kernel_rfl))]
  sl_unfold_words
  rw [View.canon_unit_zero (S := S256x128) hz2]
  simp only [View.readAt_eq_ld, harg2.read_unread, harg3.read_unread, harg6.read_unread, View.ld_unit_zero (S := S256x128) hz2, View.ld_unit_zero (S := S128x128) hz2, View.ld_unit_zero (S := S1x128) hz2]

/-- Last step: the same update, and the output block, entered at anything, leaves at the updated accumulator plus the bias row. -/
theorem run2_C (hc0 : ¬cond2_0 i) (hc1 : cond2_1 i) (xs0 : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare (k2_pay3 (k2_pay2 x0 x1 xs0) x2) ∗ owns (c : Thread nD τ) arg6 fullShare (k2_pay2 x0 x1 xs0)) -∗ K ⟨⟩))
      ⊢ wp frame (wpE (defs₀ (F := F)) Variants.none c none) E (cc2__tropical_kernel i arg2 harg2 arg3 harg3 arg4 harg4 arg5 harg5 arg6 harg6) K := by
  simp only [cc2__tropical_kernel_eq_skeleton]; unfold cc2__tropical_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S256x128.size (by sl_kernel_rfl))]
    sl_unfold_words
    rw [View.canon_unit_zero (S := S256x128) hz2]
    simp only [View.readAt_eq_ld, harg2.read_unread, harg3.read_unread, harg4.read_unread, harg6.read_unread, View.ld_unit_zero (S := S256x128) hz2, View.ld_unit_zero (S := S128x128) hz2, View.ld_unit_zero (S := S1x128) hz2, View.readCov_unit_zero (S := S256x128) _ hz2]
  iexists _; isplitr; swap; · iexact HS0
  ipureintro
  rw [View.read_writes_eq_canon _ _ _ (View.cover_of_tiledL _ S256x128.size (by sl_kernel_rfl))]
  sl_unfold_words
  rw [View.canon_unit_zero (S := S256x128) hz2]
  simp only [View.readAt_eq_ld, harg2.read_unread, harg3.read_unread, harg6.read_unread, View.ld_unit_zero (S := S256x128) hz2, View.ld_unit_zero (S := S128x128) hz2, View.ld_unit_zero (S := S1x128) hz2]

end Cert.KernelIdeal.Hand

end
-- ==== Proof.KI.R2.Frame.lean ====
import proofs.«139585_j60120952209906_1_alg».proof.Proof.KI.R2.Run
import proofs.«139585_j60120952209906_1_alg».proof.Proof.KI.Entry
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def iblk2 (V : EntryV F) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: the update over the reset value at a first contraction step, else over the point before. -/
def acc2 (V : EntryV F) (c : Dev nD) : (n : ℕ) → n < cfg2.N → Vec F S256x128 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩)
      (if (n + 1) % 8 = 0 then k2_pay1 (F := F) else acc2 V c n (Nat.lt_of_succ_lt hn))

theorem acc2_step (V : EntryV F) (c : Dev nD) (t : Fin cfg2.N) :
    acc2 V c t.val t.isLt = k2_pay2 (iblk2 V c 0 t) (iblk2 V c 1 t) (if t.val % 8 = 0 then k2_pay1 (F := F) else (acc2 V c (t.val - 1) (Nat.lt_of_le_of_lt (Nat.sub_le _ _) t.isLt))) := by
  obtain ⟨n, hn⟩ := t
  cases n with
  | zero => exact congrArg (k2_pay2 (iblk2 V c 0 ⟨0, hn⟩) (iblk2 V c 1 ⟨0, hn⟩)) (if_pos (Nat.zero_mod 8)).symm
  | succ n => rfl

/-- What the output block (first) and the accumulator (second) hold after point `n`; the first is read only at a last step. -/
def outsAt2 (V : EntryV F) (c : Dev nD) (n : ℕ) (hn : n < cfg2.N) : Vec F S256x128 .f32 × Vec F S256x128 .f32 :=
  (k2_pay3 (acc2 V c n hn) (iblk2 V c 2 ⟨n, hn⟩), acc2 V c n hn)

theorem outsAt2_first (V : EntryV F) (c : Dev nD) (t : Fin cfg2.N) (h : (cfg2.grid.coords t 1).val = 0) :
    (outsAt2 V c t.val t.isLt).2 = k2_pay2 (iblk2 V c 0 t) (iblk2 V c 1 t) (k2_pay1 (F := F)) :=
  (acc2_step V c t).trans (congrArg _ (if_pos ((coord2_1 t).symm.trans h)))

theorem outsAt2_next (V : EntryV F) (c : Dev nD) (t : Fin cfg2.N) (h : (cfg2.grid.coords t 1).val ≠ 0) :
    (outsAt2 V c t.val t.isLt).2 = k2_pay2 (iblk2 V c 0 t) (iblk2 V c 1 t) (outsAt2 V c (t.val - 1) (Nat.lt_of_le_of_lt (Nat.sub_le _ _) t.isLt)).2 :=
  (acc2_step V c t).trans (congrArg _ (if_neg fun e => h ((coord2_1 t).trans e)))

theorem outsAt2_out (V : EntryV F) (c : Dev nD) (t : Fin cfg2.N) (h : (cfg2.grid.coords t 1).val + 1 = 8) :
    (outsAt2 V c t.val t.isLt).1 = k2_pay3 (outsAt2 V c t.val t.isLt).2 (iblk2 V c 2 t) := rfl

/-- Before the first point the launch's invariant; afterwards the accumulator at what the point before left. -/
def PhiS2 (V : EntryV F) (c : Dev nD) : (n : ℕ) → n ≤ cfg2.N → sProp 𝕄
  | 0, _ => Pipeline.ΦA spec2 c
  | n + 1, hn => PhiWith2 c (owns (c : Thread nD τ) scM2_0 fullShare (acc2 V c n hn))

theorem PhiS2_pos (V : EntryV F) (c : Dev nD) (n : ℕ) (h : n ≤ cfg2.N) (hz : n ≠ 0) :
    PhiS2 V c n h = PhiWith2 c (owns (c : Thread nD τ) scM2_0 fullShare (acc2 V c (n - 1) (by omega))) := by
  cases n with
  | zero => exact absurd rfl hz
  | succ n => rfl

def dat2 (V : EntryV F) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (V : EntryV F) (c : Dev nD) (w : Fin cfg2.W) : (dat2 V c).A w = V c (Pipeline.arrRef spec2 w) := rfl
theorem after2_3 (V : EntryV F) (c : Dev nD) (t : Fin cfg2.N) : (dat2 V c).after 3 t = (outsAt2 V c t.val t.isLt).1 := rfl
theorem owed2 (V : EntryV F) (c : Dev nD) (t) : (dat2 V c).owed t = 0 := rfl
theorem share2 (V : EntryV F) (c : Dev nD) (w) : (dat2 V c).q w = fullShare := rfl
theorem recorded2 (V : EntryV F) (c : Dev nD) (t) : (dat2 V c).recorded t = Set.univ := rfl

/-- The body leaves each input's block in place, so the block is there at every point: one argument for the three inputs. -/
theorem before2 (V : EntryV F) (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) := by
  refine ⟨fun d => ?_, fun d => ?_, fun d => ?_⟩ <;>
    exact ((dat2 V c).before_in_eq_fetched _ rfl (fun _ => rfl) (fun _ _ _ => rfl) (fun _ => rfl) t d).trans rfl

/-- Whatever the invariant holds of the accumulator, it gives the launch's back. -/
theorem Phi_weak2 (V : EntryV F) (c : Dev nD) (t : Fin (cfg2.N + 1)) : (dat2 V c).Φ t ⊢ Pipeline.ΦA spec2 c := by
  obtain ⟨n, hn⟩ := t
  cases n with
  | zero => exact Idealize.SL.BI.Entails.refl _
  | succ n =>
    show PhiWith2 c _ ⊢ _
    rw [PhiA2_eq]; unfold PhiWith2
    iintro ⟨⟨HS0, HR⟩, Hg⟩
    isplitl [HS0 HR]
    · isplitl [HS0]
      · iexists _; iexact HS0
      iexact HR
    iexact Hg

theorem hin2 (V : EntryV F) (c : Dev nD) : Pipeline.ΦA spec2 c ⊢ (dat2 V c).Φ 0 := Idealize.SL.BI.Entails.refl _
theorem hout2 (V : EntryV F) (c : Dev nD) : (dat2 V c).Φ (Fin.last cfg2.N) ⊢ Pipeline.ΦA spec2 c := Phi_weak2 V c _

def bodyPre2 (V : EntryV F) (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (V : EntryV F) (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The body at any point: the point's position in its run of eight contraction steps says which case it is in. -/
theorem sound_body2 (V : EntryV F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [(before2 V c t).1, (before2 V c t).2.1, (before2 V c t).2.2]
  rw [show (dat2 V c).owesAt () t.succ = (dat2 V c).owesAt () t.castSucc from rfl,
    show (dat2 V c).Φ t.succ = PhiWith2 c (owns (c : Thread nD τ) scM2_0 fullShare (acc2 V c t.val t.isLt)) from rfl, acc2_step,
    show (dat2 V c).leavesExact 0 t = owns (c : Thread nD τ) (ms2_0 t) fullShare (iblk2 V c 0 t) from by unfold Dat.leavesExact; rw [liveAt2_0 t]; rfl,
    show (dat2 V c).leavesExact 1 t = owns (c : Thread nD τ) (ms2_1 t) fullShare (iblk2 V c 1 t) from by unfold Dat.leavesExact; rw [liveAt2_1 t]; rfl,
    show (dat2 V c).leavesExact 2 t = owns (c : Thread nD τ) (ms2_2 t) fullShare (iblk2 V c 2 t) from by unfold Dat.leavesExact; rw [liveAt2_2 t]; rfl]
  by_cases h0 : t.val % 8 = 0
  · have hc0 := (hcond2_0 t).mpr h0
    have hc1 : ¬cond2_1 (grid2.coords t) := fun h => by have := (hcond2_1 t).mp h; omega
    rw [if_pos h0, Dat.leavesExact_idle (dat2 V c) 3 t (idleAt2_3_A t hc0 hc1) (noFlush2_3_A t hc0 hc1)]
    refine (sep_mono_left (Phi_weak2 V c t.castSucc)).trans ?_
    rw [PhiA2_eq]; unfold PhiWith2
    iintro ⟨⟨⟨⟨%ds, HS0⟩, HR⟩, Hg⟩, Ho, ⟨%d0, H0⟩, ⟨%d1, H1⟩, ⟨%d2, H2⟩, ⟨%d3, H3⟩⟩
    iapply (run2_A c (grid2.coords t) _ _ _ _ _ _ _ _ _ _ (iblk2 V c 0 t) (iblk2 V c 1 t) (iblk2 V c 2 t) hc0 hc1 _ Set.univ _)
    iframe H0 H1 H2 H3
    isplitl [HS0]; · iexists _; iexact HS0
    iintro ⟨H0, H1, H2, H3, HS0⟩
    iframe HS0 HR Hg Ho H0 H1 H2
    iexists _; iexact H3
  · have hc0 : ¬cond2_0 (grid2.coords t) := fun h => h0 ((hcond2_0 t).mp h)
    have hz : t.val ≠ 0 := fun e => h0 (e ▸ Nat.zero_mod 8)
    rw [if_neg h0, show (dat2 V c).Φ t.castSucc = PhiS2 V c t.val (Nat.le_of_lt t.isLt) from rfl, PhiS2_pos V c _ _ hz]
    unfold PhiWith2
    by_cases h1 : t.val % 8 = 7
    · have hc1 := (hcond2_1 t).mpr h1
      rw [show (dat2 V c).leavesExact 3 t = owns (c : Thread nD τ) (ms2_3 t) fullShare ((dat2 V c).after 3 t) from by
        unfold Dat.leavesExact; rw [liveAt2_3_C t hc0 hc1], after2_3]
      rw [show (outsAt2 V c t.val t.isLt).1 = k2_pay3 (acc2 V c t.val t.isLt) (iblk2 V c 2 t) from rfl, acc2_step, if_neg h0]
      iintro ⟨⟨⟨HS0, HR⟩, Hg⟩, Ho, ⟨%d0, H0⟩, ⟨%d1, H1⟩, ⟨%d2, H2⟩, ⟨%d3, H3⟩⟩
      iapply (run2_C c (grid2.coords t) _ _ _ _ _ _ _ _ _ _ (iblk2 V c 0 t) (iblk2 V c 1 t) (iblk2 V c 2 t) hc0 hc1 _ Set.univ _)
      iframe H0 H1 H2 HS0
      isplitl [H3]; · iexists _; iexact H3
      iintro ⟨H0, H1, H2, H3, HS0⟩
      iframe
    · have hc1 : ¬cond2_1 (grid2.coords t) := fun h => h1 ((hcond2_1 t).mp h)
      rw [Dat.leavesExact_idle (dat2 V c) 3 t (idleAt2_3_B t hc0 hc1) (noFlush2_3_B t hc0 hc1)]
      iintro ⟨⟨⟨HS0, HR⟩, Hg⟩, Ho, ⟨%d0, H0⟩, ⟨%d1, H1⟩, ⟨%d2, H2⟩, ⟨%d3, H3⟩⟩
      iapply (run2_B c (grid2.coords t) _ _ _ _ _ _ _ _ _ _ (iblk2 V c 0 t) (iblk2 V c 1 t) (iblk2 V c 2 t) hc0 hc1 _ _ Set.univ _)
      iframe H0 H1 H2 H3 HS0
      iintro ⟨H0, H1, H2, H3, HS0⟩
      iframe HS0 HR Hg Ho H0 H1 H2
      iexists _; iexact H3

theorem body_obligation2 (V : EntryV F) (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.Runs.lean ====
import proofs.«139585_j60120952209906_1_alg».proof.Proof.Gen.KernelIdeal.Launch
import proofs.«139585_j60120952209906_1_alg».proof.Proof.Gen.KernelIdeal.Skeleton
import proofs.«139585_j60120952209906_1_alg».proof.Proof.Gen.KernelIdeal.Points
import proofs.«139585_j60120952209906_1_alg».proof.Proof.KI.Entry
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val = 0 := by decide +kernel

abbrev cond3_1 (i : grid3.Coords) : Prop := k3_cond2 i = 1#1

theorem excl3 : ∀ t : Fin cfg3.N, cond3_0 (grid3.coords t) → ¬cond3_1 (grid3.coords t) := by decide +kernel

theorem coord3_1 : ∀ t : Fin cfg3.N, (cfg3.grid.coords t 1).val = t.val := by decide +kernel

theorem liveAt3 : ∀ (w : Fin cfg3.W) (t : Fin cfg3.N), w ≠ 3 → cfg3.idle w (grid3.coords t) = false := by decide +kernel

theorem idleAt3_3 : ∀ t : Fin cfg3.N, ¬cond3_1 (grid3.coords t) → cfg3.idle 3 (grid3.coords t) = true ∧ (cfg3.win 3).flush t = false := by decide +kernel

theorem liveAt3_3 : ∀ t : Fin cfg3.N, cond3_1 (grid3.coords t) → cfg3.idle 3 (grid3.coords t) = false := by decide +kernel

abbrev ms3_0 (t : Fin cfg3.N) : Memref sig .tc .vmem S256x128 .f32 := win3_0.stage (cfg3.slots t 0)
abbrev ms3_1 (t : Fin cfg3.N) : Memref sig .tc .vmem S1x128 .f32 := win3_1.stage (cfg3.slots t 1)
abbrev ms3_2 (t : Fin cfg3.N) : Memref sig .tc .vmem S1x1 .f32 := win3_2.stage (cfg3.slots t 2)
abbrev ms3_3 (t : Fin cfg3.N) : Memref sig .tc .vmem S256x1 .f32 := win3_3.stage (cfg3.slots t 3)

abbrev scM3_0 : Memref sig .tc .vmem S256x1 .f32 := Memref.whole cc3_scratch0

def PhiWith3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = PhiWith3 c iprop(∃ d, owns (c : Thread nD τ) scM3_0 fullShare d) := by
  unfold Pipeline.ΦA PhiWith3; rw [scopedRest3_split]; simp only [scM3_0, owns_whole]; try rfl

end Cert.KernelIdeal.Hand

end
-- ==== Proof.KI.R3.Run.lean ====
import proofs.«139585_j60120952209906_1_alg».proof.Proof.KI.R3.Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0] : Fin 2 → ℕ) = fun _ => 0 := by funext a; fin_cases a <;> rfl

variable (c : Dev nD) (i : grid3.Coords) {arg2 : Memref sig .tc .vmem S256x128 .f32} (harg2 : arg2.IsWhole) {arg3 : Memref sig .tc .vmem S1x128 .f32} (harg3 : arg3.IsWhole)
  {arg4 : Memref sig .tc .vmem S1x1 .f32} (harg4 : arg4.IsWhole) {arg5 : Memref sig .tc .vmem S256x1 .f32} (harg5 : arg5.IsWhole) {arg6 : Memref sig .tc .vmem S256x1 .f32} (harg6 : arg6.IsWhole)
  (x0 : Vec F S256x128 .f32) (x1 : Vec F S1x128 .f32) (x2 : Vec F S1x1 .f32) (xi3 xs0 : Vec F S256x1 .f32)

/-- The body's triple on whole buffers: contents `x0 x1 x2 xi3 xs0` before, `x0 x1 x2 o s` after. -/
def runTo3 (o s : Vec F S256x1 .f32) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2 ∗ owns (c : Thread nD τ) arg5 fullShare o ∗ owns (c : Thread nD τ) arg6 fullShare s) -∗ K ⟨⟩))
      ⊢ wp frame (wpE (defs₀ (F := F)) Variants.none c none) E (cc3__tropical_kernel i arg2 harg2 arg3 harg3 arg4 harg4 arg5 harg5 arg6 harg6) K

set_option maxHeartbeats 600000 in
/-- The running maximum is updated over `k3_pay1` where `cond3_0` holds, over its old value elsewhere; where `cond3_1` holds the output block becomes that plus the bias. -/
theorem kernelRun3 (h : cond3_0 i → ¬cond3_1 i) :
    runTo3 c i harg2 harg3 harg4 harg5 harg6 x0 x1 x2 xi3 xs0
      (if cond3_1 i then k3_pay3 (k3_pay2 x0 x1 (if cond3_0 i then k3_pay1 else xs0)) x2 else xi3) (k3_pay2 x0 x1 (if cond3_0 i then k3_pay1 else xs0)) := by
  intro E K
  by_cases hc0 : cond3_0 i <;> by_cases hc1 : cond3_1 i
  · exact absurd hc1 (h hc0)
  all_goals
    first | rw [if_pos hc1] | rw [if_neg hc1]
    first | rw [if_pos hc0] | rw [if_neg hc0]
    simp only [cc3__tropical_kernel_eq_skeleton]; unfold cc3__tropical_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3] <;> (iexists _; isplitr; swap; · iassumption) <;> ipureintro <;> first
      | exact harg5.read_unread _
      | (
        rw [View.read_writes_eq_canon _ _ _ (View.cover_of_tiledL _ S256x1.size (by sl_kernel_rfl))]
        sl_unfold_words
        rw [View.canon_cons_unit_zero (S := S256x1) hz3]
        simp only [View.readCov_unit_zero (S := S256x1) _ hz3, View.readAt_eq_ld, harg2.read_unread, harg3.read_unread, harg4.read_unread, harg6.read_unread, View.ld_unit_zero (S := S256x128) hz3, View.ld_unit_zero (S := S1x128) hz3, View.ld_unit_zero (S := S1x1) hz3, View.ld_unit_zero (S := S256x1) hz3])

end Cert.KernelIdeal.Hand

end
-- ==== Proof.KI.R3.Frame.lean ====
import proofs.«139585_j60120952209906_1_alg».proof.Proof.KI.R3.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def iblk3 (V : EntryV F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

variable (V : EntryV F) (c : Dev nD)

/-- The running maximum after step `n`: step 0 updates `k3_pay1`, every later step what the step before left. -/
def acc3 : (n : ℕ) → n < cfg3.N → Vec F S256x1 .f32
  | 0, hn => k3_pay2 (iblk3 V c 0 ⟨0, hn⟩) (iblk3 V c 1 ⟨0, hn⟩) k3_pay1
  | n + 1, hn => k3_pay2 (iblk3 V c 0 ⟨n + 1, hn⟩) (iblk3 V c 1 ⟨n + 1, hn⟩) (acc3 n (Nat.lt_of_succ_lt hn))

/-- After step `n`: the running maximum plus the bias, and the running maximum. -/
def outsAt3 (n : ℕ) (hn : n < cfg3.N) : Vec F S256x1 .f32 × Vec F S256x1 .f32 :=
  (k3_pay3 (acc3 V c n hn) (iblk3 V c 2 ⟨n, hn⟩), acc3 V c n hn)

theorem outsAt3_first (t : Fin cfg3.N) (h : (cfg3.grid.coords t 1).val = 0) :
    (outsAt3 V c t.val t.isLt).2 = k3_pay2 (iblk3 V c 0 t) (iblk3 V c 1 t) (k3_pay1 (F := F)) := by
  obtain ⟨n, hn⟩ := t
  obtain rfl : n = 0 := (coord3_1 ⟨n, hn⟩).symm.trans h
  rfl
theorem outsAt3_next (t : Fin cfg3.N) (h : (cfg3.grid.coords t 1).val ≠ 0) :
    (outsAt3 V c t.val t.isLt).2 = k3_pay2 (iblk3 V c 0 t) (iblk3 V c 1 t) (outsAt3 V c (t.val - 1) (Nat.lt_of_le_of_lt (Nat.sub_le _ _) t.isLt)).2 := by
  obtain ⟨n, hn⟩ := t
  cases n with
  | zero => exact absurd (coord3_1 ⟨0, hn⟩) h
  | succ n => rfl
theorem outsAt3_out (t : Fin cfg3.N) (h : (cfg3.grid.coords t 1).val + 1 = 8) :
    (outsAt3 V c t.val t.isLt).1 = k3_pay3 (outsAt3 V c t.val t.isLt).2 (iblk3 V c 2 t) := rfl

/-- Before step `n`: the region's invariant, from step 1 on with the running maximum at what step `n − 1` left. -/
def PhiS3 : (n : ℕ) → n ≤ cfg3.N → sProp 𝕄
  | 0, _ => Pipeline.ΦA spec3 c
  | n + 1, hn => PhiWith3 c (owns (c : Thread nD τ) scM3_0 fullShare (acc3 V c n hn))

def dat3 (V : EntryV F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := rfl
theorem after3_3 (t : Fin cfg3.N) : (dat3 V c).after 3 t = (outsAt3 V c t.val t.isLt).1 := rfl
theorem owed3 (t) : (dat3 V c).owed t = 0 := rfl
theorem share3 (w) : (dat3 V c).q w = fullShare := rfl
theorem recorded3 (t) : (dat3 V c).recorded t = Set.univ := rfl

/-- An input's block is what the body leaves of it, so it is there at every step: one argument for the three inputs. -/
theorem before3 (t : Fin cfg3.N) :
    (∀ d, (dat3 V c).before 0 t d = iblk3 V c 0 t) ∧ (∀ d, (dat3 V c).before 1 t d = iblk3 V c 1 t) ∧ (∀ d, (dat3 V c).before 2 t d = iblk3 V c 2 t) := by
  refine ⟨fun d => ?_, fun d => ?_, fun d => ?_⟩ <;>
    exact (dat3 V c).before_in_eq_fetched _ rfl (fun _ => rfl) (fun _ _ _ => rfl) (fun _ => rfl) t d

/-- Before step `t` the running maximum is at contents whose update at `t` is `acc3` at `t`. -/
theorem PhiS3_open (t : Fin cfg3.N) : (dat3 V c).Φ t.castSucc
    ⊢ iprop(∃ xs0, ⌜k3_pay2 (iblk3 V c 0 t) (iblk3 V c 1 t) (if cond3_0 (grid3.coords t) then k3_pay1 else xs0) = acc3 V c t.val t.isLt⌝ ∗ PhiWith3 c (owns (c : Thread nD τ) scM3_0 fullShare xs0)) := by
  obtain ⟨n, hn⟩ := t
  cases n with
  | zero =>
    show Pipeline.ΦA spec3 c ⊢ _
    rw [PhiA3_eq]; unfold PhiWith3
    iintro ⟨⟨⟨%d, HS0⟩, Hrest⟩, Hg⟩
    iexists d; isplitr; · ipureintro; rw [if_pos ((hcond3_0 _).mpr rfl)]; rfl
    iframe
  | succ n =>
    show PhiWith3 c (owns (c : Thread nD τ) scM3_0 fullShare (acc3 V c n (Nat.lt_of_succ_lt hn))) ⊢ _
    iintro H; iexists (acc3 V c n (Nat.lt_of_succ_lt hn)); isplitr; · ipureintro; rw [if_neg ((hcond3_0 _).not.mpr (Nat.succ_ne_zero n))]; rfl
    iexact H

def bodyPre3 (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

/-- After step `t` the output block is at the stored value where `cond3_1` holds, at its old contents elsewhere. -/
theorem leaves3_3 (t : Fin cfg3.N) (d) :
    owns (c : Thread nD τ) (ms3_3 t) fullShare (if cond3_1 (grid3.coords t) then k3_pay3 (acc3 V c t.val t.isLt) (iblk3 V c 2 t) else (dat3 V c).before 3 t d) ⊢ (dat3 V c).leavesExact 3 t := by
  by_cases h1 : cond3_1 (grid3.coords t)
  · rw [if_pos h1, show (dat3 V c).leavesExact 3 t = owns (c : Thread nD τ) (ms3_3 t) fullShare ((dat3 V c).after 3 t) from by
      unfold Dat.leavesExact; rw [liveAt3_3 t h1]]
    exact .rfl
  · rw [if_neg h1, Dat.leavesExact_idle (dat3 V c) 3 t (idleAt3_3 t h1).1 (idleAt3_3 t h1).2]
    iintro H; iexists _; iexact H

theorem sound_body3 (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2.1, (before3 V c t).2.2]
  rw [show (dat3 V c).owesAt () t.succ = (dat3 V c).owesAt () t.castSucc from rfl,
    show (dat3 V c).Φ t.succ = PhiWith3 c (owns (c : Thread nD τ) scM3_0 fullShare (acc3 V c t.val t.isLt)) from rfl,
    show (dat3 V c).leavesExact 0 t = owns (c : Thread nD τ) (ms3_0 t) fullShare (iblk3 V c 0 t) from by unfold Dat.leavesExact; rw [liveAt3 0 t (by decide)]; rfl,
    show (dat3 V c).leavesExact 1 t = owns (c : Thread nD τ) (ms3_1 t) fullShare (iblk3 V c 1 t) from by unfold Dat.leavesExact; rw [liveAt3 1 t (by decide)]; rfl,
    show (dat3 V c).leavesExact 2 t = owns (c : Thread nD τ) (ms3_2 t) fullShare (iblk3 V c 2 t) from by unfold Dat.leavesExact; rw [liveAt3 2 t (by decide)]; rfl]
  iintro ⟨HΦ, Ho, ⟨%d0, H0⟩, ⟨%d1, H1⟩, ⟨%d2, H2⟩, ⟨%d3, H3⟩⟩
  icases (PhiS3_open V c t) $$ HΦ with ⟨%xs0, %hxs, HP⟩
  unfold PhiWith3
  icases HP with ⟨⟨HS0, Hrest⟩, Hg⟩
  iapply (kernelRun3 c (grid3.coords t) _ _ _ _ _ (iblk3 V c 0 t) (iblk3 V c 1 t) (iblk3 V c 2 t) _ xs0 (excl3 t) Set.univ _)
  iframe H0 H1 H2 H3 HS0
  rw [hxs]
  iintro ⟨H0, H1, H2, H3, HS0⟩
  iframe HS0 Hrest Hg Ho H0 H1 H2
  iapply (leaves3_3 V c t d3); iexact H3

theorem body_obligation3 : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

theorem hout3 : (dat3 V c).Φ (Fin.last cfg3.N) ⊢ Pipeline.ΦA spec3 c := by
  rw [show (dat3 V c).Φ (Fin.last cfg3.N) = PhiWith3 c (owns (c : Thread nD τ) scM3_0 fullShare (acc3 V c 7 (by decide))) from rfl, PhiA3_eq]; unfold PhiWith3
  iintro ⟨⟨HS0, Hrest⟩, Hg⟩
  iframe Hrest Hg
  iexists _; iexact HS0

end Cert.KernelIdeal.Hand

end
-- ==== Proof.KI.Regs.lean ====
import proofs.«139585_j60120952209906_1_alg».proof.Proof.Gen.KernelIdeal.Regions
import proofs.«139585_j60120952209906_1_alg».proof.Proof.KI.R0.Frame
import proofs.«139585_j60120952209906_1_alg».proof.Proof.KI.R1.Frame
import proofs.«139585_j60120952209906_1_alg».proof.Proof.KI.R2.Frame
import proofs.«139585_j60120952209906_1_alg».proof.Proof.KI.R3.Frame
import Idealize.ShloMosaic.Lib.Pipeline.Kit
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev E1 : EntryV F := fun c b => Gen.V1 m c b

def X2 (c : Dev nD) : Valuation τ sig (Elt F) :=
  Pipeline.withArrays spec0 c (Gen.V1 m c) fun w => (dat0 (E1 m) c).arrAt w cfg0.N

def outs₁ : Gen.Outs (F := F) := fun j r c =>
  match j with
  | 2 => X2 m c r
  | _ => m (c, r)

abbrev E3 : EntryV F := fun c b => Gen.V3 m (outs₁ m) c b

def X4 (c : Dev nD) : Valuation τ sig (Elt F) :=
  Pipeline.withArrays spec1 c (Gen.V3 m (outs₁ m) c) fun w => (dat1 (E3 m) c).arrAt w cfg1.N

def outs₂ : Gen.Outs (F := F) := fun j r c =>
  match j with
  | 2 => X2 m c r
  | 4 => X4 m c r
  | _ => m (c, r)

abbrev E5 : EntryV F := fun c b => Gen.V5 m (outs₂ m) c b

def X6 (c : Dev nD) : Valuation τ sig (Elt F) :=
  Pipeline.withArrays spec2 c (Gen.V5 m (outs₂ m) c) fun w => (dat2 (E5 m) c).arrAt w cfg2.N

def outs₃ : Gen.Outs (F := F) := fun j r c =>
  match j with
  | 2 => X2 m c r
  | 4 => X4 m c r
  | 6 => X6 m c r
  | _ => m (c, r)

abbrev E7 : EntryV F := fun c b => Gen.V7 m (outs₃ m) c b

def X8 (c : Dev nD) : Valuation τ sig (Elt F) :=
  Pipeline.withArrays spec3 c (Gen.V7 m (outs₃ m) c) fun w => (dat3 (E7 m) c).arrAt w cfg3.N

def outs : Gen.Outs (F := F) := fun j r c =>
  match j with
  | 2 => X2 m c r
  | 4 => X4 m c r
  | 6 => X6 m c r
  | 8 => X8 m c r
  | _ => m (c, r)

theorem outs_2 (c : Dev nD) : outs m 2 main_v1 c = (dat0 (E1 m) c).arrAt 3 cfg0.N :=
  show X2 m c _ = _ from Pipeline.withArrays_arr spec0 launch0.win.arr_inj c _ _ 3
theorem outs_4 (c : Dev nD) : outs m 4 main_v7 c = (dat1 (E3 m) c).arrAt 3 cfg1.N :=
  show X4 m c _ = _ from Pipeline.withArrays_arr spec1 launch1.win.arr_inj c _ _ 3
theorem outs_6 (c : Dev nD) : outs m 6 main_v13 c = (dat2 (E5 m) c).arrAt 3 cfg2.N :=
  show X6 m c _ = _ from Pipeline.withArrays_arr spec2 launch2.win.arr_inj c _ _ 3
theorem outs_8 (c : Dev nD) : outs m 8 main_v15 c = (dat3 (E7 m) c).arrAt 3 cfg3.N :=
  show X8 m c _ = _ from Pipeline.withArrays_arr spec3 launch3.win.arr_inj c _ _ 3

def pdats : (p : Fin 4) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 5 → Dev nD → sProp 𝕄 := fun _ c => R c

/-- A region whose arrays other than `o` are inputs runs from `V` to `V` with `o` set to its final contents `x`. -/
def reg (p : Fin 4) (kit : Pipeline.LaunchFacts (nD := nD) (τ := τ) cfgs p) (o : Fin (cfgs p).W)
    (V : Dev nD → Valuation τ sig (Elt F)) (x : (c : Dev nD) → Buf (Elt F) ((c : Thread nD τ).loc (Pipeline.arrRef (cfgs p).spec o)))
    (hio : ∀ w, w ≠ o → ((cfgs p).win w).isOut = false)
    (hbd : ∀ c, BodyObligation (pdats m p c) (defs₀ (F := F)) Variants.none () Set.univ)
    (howed : ∀ c t, (pdats m p c).owed t = 0)
    (hq : ∀ c w, (pdats m p c).q w = fullShare)
    (hA : ∀ c w, (pdats m p c).A w = V c (Pipeline.arrRef (cfgs p).spec w))
    (hrec : ∀ c, (pdats m p c).recorded 0 = Set.univ)
    (hΦi : ∀ c, Pipeline.ΦA (cfgs p).spec c ⊢ (pdats m p c).Φ 0)
    (hΦo : ∀ c, (pdats m p c).Φ (Fin.last (cfgs p).N) ⊢ Pipeline.ΦA (cfgs p).spec c)
    (hx : ∀ c, x c = (pdats m p c).arrAt o (cfgs p).N) :
    Pipeline.RegionSeg (pcfgs (F := F)) Gen.adm (pdats m) () defs₀ Variants.none L lv p where
  win := kit.win.to₀
  block_pos := kit.block_pos
  stage_whole := kit.stage_whole
  K := PEmpty
  osem k := k.elim
  ho := Pipeline.OwnSemFacts.none _
  hbody c := (hbd c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (Function.update (V c) (Pipeline.arrRef (cfgs p).spec o) (x c)) ∗ R c)
  X c := iprop(∃ r, prngReg c r)
  Y c := iprop(∃ r, prngReg c r)
  Z c := Pipeline.unscopedRest (cfgs p).spec c (fun b => V c b)
  hentry c := by
    rw [Pipeline.ownSems0_none]
    have hsplit := Pipeline.arrays_of_unscopedBufs (p := p) (pcfgs (F := F)) Gen.adm (pdats m) kit.win kit.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c]; trivial)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    refine (hΦo c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm kit.win kit.arr_whole c (pdats m) ((pdats m p c).share_full (hq c))
      (fun b => V c b) (fun b => Function.update (V c) (Pipeline.arrRef (cfgs p).spec o) (x c) b) ((pdats m p c).arrAt · (cfgs p).N)
      (fun w => if h : w = o then by subst h; exact ((Function.update_self _ _ (V c)).trans (hx c)).symm else
        ((pdats m p c).arrAt_in w (hio w h) _).trans ((hA c w).trans (Function.update_of_ne (StableHlo.devRef_ne_of_ne fun e => h (kit.win.arr_inj e)) ..).symm))
      (fun b hb => Function.update_of_ne (StableHlo.devRef_ne_of_ne fun e => hb (Finset.mem_image.mpr ⟨o, Finset.mem_univ _, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

def reg0 : Pipeline.RegionSeg (pcfgs (F := F)) Gen.adm (pdats m) () defs₀ Variants.none L lv 0 :=
  reg m 0 launch0 (3 : Fin 4) (Gen.V1 m) (outs m 2 main_v1) (by decide) (body_obligation0 _) (owed0 _) (share0 _) (A_eq0 _) (recorded0 _ · 0) (hin0 _) (hout0 _) (outs_2 m)
def reg1 : Pipeline.RegionSeg (pcfgs (F := F)) Gen.adm (pdats m) () defs₀ Variants.none L lv 1 :=
  reg m 1 launch1 (3 : Fin 4) (Gen.V3 m (outs m)) (outs m 4 main_v7) (by decide) (body_obligation1 _) (owed1 _) (share1 _) (A_eq1 _) (recorded1 _ · 0) (hin1 _) (hout1 _) (outs_4 m)
def reg2 : Pipeline.RegionSeg (pcfgs (F := F)) Gen.adm (pdats m) () defs₀ Variants.none L lv 2 :=
  reg m 2 launch2 (3 : Fin 4) (Gen.V5 m (outs m)) (outs m 6 main_v13) (by decide) (body_obligation2 _) (owed2 _) (share2 _) (A_eq2 _) (recorded2 _ · 0) (hin2 _) (hout2 _) (outs_6 m)
def reg3 : Pipeline.RegionSeg (pcfgs (F := F)) Gen.adm (pdats m) () defs₀ Variants.none L lv 3 :=
  reg m 3 launch3 (3 : Fin 4) (Gen.V7 m (outs m)) (outs m 8 main_v15) (by decide) (body_obligation3 _) (owed3 _) (share3 _) (A_eq3 _) (recorded3 _ · 0) (hin3 _) (hout3 _) (outs_8 m)

abbrev u₀ : UR sig nD τ := initOf (Pipeline.cells cfgs Gen.cellOf_inj) (Pipeline.launchToks cfgs Gen.cellOf_inj)

abbrev G : Dev nD → sProp 𝕄 := fun _ => iprop(emp)

theorem hu₀ : (ownU u₀ : sProp 𝕄) ⊢ |={Set.univ}=> iprop(BI.own (emb₁ (initOf (Pipeline.cells cfgs Gen.cellOf_inj) (Pipeline.launchToks cfgs Gen.cellOf_inj))) ∗ bigSep Finset.univ (G (F := F))) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ G (F := F) c)) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : E (F := F) 4 c ⊢ (iprop(∃ W, owes (c : Thread nD τ) (0 : CellTallies nD τ sig Unit) W) : sProp 𝕄) := by
  iintro ⟨-, HO⟩; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m emb₁ () Variants.none L lv (fun _ _ => rfl) ρ (outs m) (pdats m) 0 G u₀ hu₀ E (hE0 ρ) hE4
    (reg0 m) (fun _ => .rfl) (fun _ => .rfl) (reg1 m) (fun _ => .rfl) (fun _ => .rfl)
    (reg2 m) (fun _ => .rfl) (fun _ => .rfl) (reg3 m) (fun _ => .rfl) (fun _ => .rfl)

end Cert.KernelIdeal.Hand

end
-- ==== Proof.TropSpec.lean ====
import Idealize.ShloMosaic.PureOps.Ideal
import Idealize.ShloMosaic.Lib.ValueIdx

noncomputable section

namespace Tropical

open Idealize.ShloMosaic Idealize.ShloMosaic.ValueIdx

-- The value every maximum is folded from.
abbrev bot32 : EReal := Ideal.ofBits .f32 0xFF800000#32

def rowMax (I : ℕ) (w x : Fin I → EReal) : EReal :=
  (Finset.univ : Finset (Fin I)).fold max bot32 (fun k => w k * x k)

-- One layer: out[r,o] = max_i (w[o,i] * x[r,i]) + b[o].
def layer (B O I : ℕ) (x : (⟨2, ![B, I]⟩ : Shape).Idx → EReal) (w : (⟨2, ![O, I]⟩ : Shape).Idx → EReal)
    (b : (⟨1, ![O]⟩ : Shape).Idx → EReal) : (⟨2, ![B, O]⟩ : Shape).Idx → EReal :=
  fun j => rowMax I (fun k => w (ix2 (j 1) k)) (fun k => x (ix2 (j 0) k)) + b (ix1 (j 1))

def slabW (l : Fin 2) (wh : (⟨3, ![2, 1024, 1024]⟩ : Shape).Idx → EReal) : (⟨2, ![1024, 1024]⟩ : Shape).Idx → EReal :=
  fun j => wh (ix3 l (j 0) (j 1))

def slabB (l : Fin 2) (bh : (⟨2, ![2, 1024]⟩ : Shape).Idx → EReal) : (⟨1, ![1024]⟩ : Shape).Idx → EReal :=
  fun j => bh (ix2 l (j 0))

-- The four layers composed, the last axis (of extent 1) squeezed.
def net (x : (⟨2, ![256, 3]⟩ : Shape).Idx → EReal) (w1 : (⟨2, ![1024, 3]⟩ : Shape).Idx → EReal)
    (b1 : (⟨1, ![1024]⟩ : Shape).Idx → EReal) (wh : (⟨3, ![2, 1024, 1024]⟩ : Shape).Idx → EReal)
    (bh : (⟨2, ![2, 1024]⟩ : Shape).Idx → EReal) (w4 : (⟨2, ![1, 1024]⟩ : Shape).Idx → EReal)
    (b4 : (⟨1, ![1]⟩ : Shape).Idx → EReal) : (⟨1, ![256]⟩ : Shape).Idx → EReal :=
  fun r =>
    layer 256 1 1024
      (layer 256 1024 1024
        (layer 256 1024 1024 (layer 256 1024 3 x w1 b1) (slabW 0 wh) (slabB 0 bh))
        (slabW 1 wh) (slabB 1 bh))
      w4 b4 (ix2 (r 0) 0)

end Tropical

end
-- ==== Proof.KI.HostReads.lean ====
import proofs.«139585_j60120952209906_1_alg».proof.Proof.Gen.KernelIdeal.Regions
import proofs.«139585_j60120952209906_1_alg».proof.Proof.TropSpec
import Idealize.ShloMosaic.Lib.StableHlo.Run
import Idealize.ShloMosaic.Lib.ValueLayout

noncomputable section

namespace Cert.KernelIdeal.Hand

open Idealize.ShloMosaic Idealize.ShloMosaic.TcCoe Idealize.ShloMosaic.ValueIdx Idealize.SL.Sem
open Cert.KernelIdeal

section Reads
variable {α : Type} (l : Fin 2)

-- Slab l of a stack of two [1024,1024] arrays, sliced out and read without its unit axis, is the stack at (l, a, b).
theorem slabW_read (X : S2x1024x1024.Idx → α) (h1 : S2x1024x1024.Slices ![l.val, 0, 0] S1x1024x1024)
    (h2 : S1x1024x1024.ShapeCasts S1024x1024) (a b : Fin 1024) :
    shapeCast S1024x1024 (extractStridedSlice S1x1024x1024 ![l.val, 0, 0] X h1) h2 (ix2 a b) = X (ix3 l a b) :=
  (shapeCast_1ab_ab_apply _ h2 a b).trans <|
    extractStridedSlice_apply _ X h1 (ix3 0 a b) (ix3 l a b) fun d => by
      match d with
      | ⟨0, _⟩ => rfl
      | ⟨1, _⟩ => show a.val = 0 + a.val; omega
      | ⟨2, _⟩ => show b.val = 0 + b.val; omega

-- Row l of a stack of two [1024] arrays, sliced out, flattened and read as a [1,1024] row, is the stack at (l, o).
theorem slabB_read (X : S2x1024.Idx → α) (h1 : S2x1024.Slices ![l.val, 0] S1x1024) (h2 : S1x1024.ShapeCasts S1024)
    (h3 : S1024.ShapeCasts S1x1024) (o : Fin 1024) :
    shapeCast S1x1024 (shapeCast S1024 (extractStridedSlice S1x1024 ![l.val, 0] X h1) h2) h3 (ix2 0 o) = X (ix2 l o) := by
  rw [shapeCast_shapeCast]
  exact extractStridedSlice_apply _ X h1 (ix2 0 o) (ix2 l o) fun d => by
    match d with
    | ⟨0, _⟩ => rfl
    | ⟨1, _⟩ => show o.val = 0 + o.val; omega

end Reads

variable (m : (ℓ : Loc nD τ sig) → Buf (Elt Ideal) ℓ) (outs : Gen.Outs (F := Ideal)) (c : Dev nD)

-- The initial contents of core c's array r.
abbrev initArr (r : Ref sig .tc) : Buf (Elt Ideal) ((c.tc : Thread nD τ).loc r) := m ((c.tc : Thread nD τ).loc r)

section Args
variable (r : Ref sig .tc) (h0 : r ∉ Gen.hostOps0_W := by decide) (h1 : r ∉ ([main_v1] : List (Ref sig .tc)) := by decide)
  (h2 : r ∉ Gen.hostOps1_W := by decide) (h3 : r ∉ ([main_v7] : List (Ref sig .tc)) := by decide)
  (h4 : r ∉ Gen.hostOps2_W := by decide) (h5 : r ∉ ([main_v13] : List (Ref sig .tc)) := by decide)
  (h6 : r ∉ Gen.hostOps3_W := by decide)
include h0 h1 h2 h3 h4 h5 h6

-- An array that nothing before a stage writes still has its initial contents at that stage.
theorem V_arg : Gen.V1 m c r = initArr m c r ∧ Gen.V2 m outs c r = initArr m c r ∧ Gen.V4 m outs c r = initArr m c r
    ∧ Gen.V6 m outs c r = initArr m c r ∧ Gen.V7 m outs c r = initArr m c r := by
  have e1 : Gen.V1 m c r = initArr m c r := (Gen.V1_of m c r h0).trans rfl
  have e2 := (Gen.V2_of m outs c r h1).trans e1
  have e4 := (Gen.V4_of m outs c r h3).trans ((Gen.V3_of m outs c r h2).trans e2)
  have e6 := (Gen.V6_of m outs c r h5).trans ((Gen.V5_of m outs c r h4).trans e4)
  exact ⟨e1, e2, e4, e6, (Gen.V7_of m outs c r h6).trans e6⟩

end Args

theorem V1_v0_bias :
    (fun o : (⟨1, ![1024]⟩ : Shape).Idx => (Gen.V1 m c main_v0 : S1x1024.Idx → EReal) (ix2 0 (o 0)))
      = initArr m c main_arg2 := by
  funext o
  show (StableHlo.after (Gen.hostOps0 (F := Ideal)) _ (Proc.devRef .tc main_v0) : S1x1024.Idx → EReal) (ix2 0 (o 0)) = _
  after_results
  exact (shapeCast_a_1a_apply _ _ 0 (o 0)).trans (congrArg _ (eq_ix1 o).symm)

theorem V3_v1 : Gen.V3 m outs c main_v1 = outs 2 main_v1 c :=
  (Gen.V3_of m outs c main_v1 (by decide)).trans (Function.update_self _ _ _)

theorem V3_v3_slab :
    (Gen.V3 m outs c main_v3 : S1024x1024.Idx → EReal) = Tropical.slabW 0 (initArr m c main_arg3) := by
  funext j
  rw [eq_ix2 j]
  show (StableHlo.after (Gen.hostOps1 (F := Ideal)) _ (Proc.devRef .tc main_v3) : S1024x1024.Idx → EReal) _ = _
  after_results
  rw [(V_arg m outs c main_arg3).2.1]
  exact slabW_read 0 _ _ _ _ _

theorem V3_v6_slab :
    (fun o : (⟨1, ![1024]⟩ : Shape).Idx => (Gen.V3 m outs c main_v6 : S1x1024.Idx → EReal) (ix2 0 (o 0)))
      = Tropical.slabB 0 (initArr m c main_arg4) := by
  funext o
  show (StableHlo.after (Gen.hostOps1 (F := Ideal)) _ (Proc.devRef .tc main_v6) : S1x1024.Idx → EReal) _ = _
  after_results
  rw [(V_arg m outs c main_arg4).2.1]
  exact slabB_read 0 _ _ _ _ _

theorem V5_v7 : Gen.V5 m outs c main_v7 = outs 4 main_v7 c :=
  (Gen.V5_of m outs c main_v7 (by decide)).trans (Function.update_self _ _ _)

theorem V5_v9_slab :
    (Gen.V5 m outs c main_v9 : S1024x1024.Idx → EReal) = Tropical.slabW 1 (initArr m c main_arg3) := by
  funext j
  rw [eq_ix2 j]
  show (StableHlo.after (Gen.hostOps2 (F := Ideal)) _ (Proc.devRef .tc main_v9) : S1024x1024.Idx → EReal) _ = _
  after_results
  rw [(V_arg m outs c main_arg3).2.2.1]
  exact slabW_read 1 _ _ _ _ _

theorem V5_v12_slab :
    (fun o : (⟨1, ![1024]⟩ : Shape).Idx => (Gen.V5 m outs c main_v12 : S1x1024.Idx → EReal) (ix2 0 (o 0)))
      = Tropical.slabB 1 (initArr m c main_arg4) := by
  funext o
  show (StableHlo.after (Gen.hostOps2 (F := Ideal)) _ (Proc.devRef .tc main_v12) : S1x1024.Idx → EReal) _ = _
  after_results
  rw [(V_arg m outs c main_arg4).2.2.1]
  exact slabB_read 1 _ _ _ _ _

theorem V7_v13 : Gen.V7 m outs c main_v13 = outs 6 main_v13 c :=
  (Gen.V7_of m outs c main_v13 (by decide)).trans (Function.update_self _ _ _)

theorem V7_v14_bias :
    (fun o : (⟨1, ![1]⟩ : Shape).Idx => (Gen.V7 m outs c main_v14 : S1x1.Idx → EReal) (ix2 0 (o 0)))
      = initArr m c main_arg6 := by
  funext o
  show (StableHlo.after (Gen.hostOps3 (F := Ideal)) _ (Proc.devRef .tc main_v14) : S1x1.Idx → EReal) (ix2 0 (o 0)) = _
  after_results
  rw [(V_arg m outs c main_arg6).2.2.2.1]
  exact (shapeCast_a_1a_apply _ _ 0 (o 0)).trans (congrArg _ (eq_ix1 o).symm)

-- Entry r of the result is entry (r, 0) of the last region's output.
theorem V9_v16 (r : Fin 256) :
    (Gen.V9 m outs c main_v16 : S256.Idx → EReal) (ix1 r) = (outs 8 main_v15 c : S256x1.Idx → EReal) (ix2 r 0) := by
  show (StableHlo.after (Gen.hostOps4 (F := Ideal)) _ (Proc.devRef .tc main_v16) : S256.Idx → EReal) (ix1 r) = _
  after_results
  rw [show Gen.V8 m outs c main_v15 = outs 8 main_v15 c from Function.update_self _ _ _]
  refine shapeCast_apply (s := S256x1) (t := S256) _ _ (ix1 r) (ix2 r 0) ?_
  rw [Shape.rowMajor_val_two, Shape.rowMajor_val_one]
  show (r : ℕ) * 1 + 0 = (r : ℕ)
  omega

-- If each region leaves the layer of the three arrays it reads, the result is the network: all else only re-indexes.
theorem net_value_of
    (h0 : (outs 2 main_v1 c : S256x1024.Idx → EReal) = Tropical.layer 256 1024 3 (Gen.V1 m c main_arg0) (Gen.V1 m c main_arg1)
      (fun o => (Gen.V1 m c main_v0 : S1x1024.Idx → EReal) (ix2 0 (o 0))))
    (h1 : (outs 4 main_v7 c : S256x1024.Idx → EReal) = Tropical.layer 256 1024 1024 (Gen.V3 m outs c main_v1) (Gen.V3 m outs c main_v3)
      (fun o => (Gen.V3 m outs c main_v6 : S1x1024.Idx → EReal) (ix2 0 (o 0))))
    (h2 : (outs 6 main_v13 c : S256x1024.Idx → EReal) = Tropical.layer 256 1024 1024 (Gen.V5 m outs c main_v7) (Gen.V5 m outs c main_v9)
      (fun o => (Gen.V5 m outs c main_v12 : S1x1024.Idx → EReal) (ix2 0 (o 0))))
    (h3 : (outs 8 main_v15 c : S256x1.Idx → EReal) = Tropical.layer 256 1 1024 (Gen.V7 m outs c main_v13) (Gen.V7 m outs c main_arg5)
      (fun o => (Gen.V7 m outs c main_v14 : S1x1.Idx → EReal) (ix2 0 (o 0)))) :
    Gen.V9 m outs c main_v16
      = Tropical.net (initArr m c main_arg0) (initArr m c main_arg1) (initArr m c main_arg2) (initArr m c main_arg3)
          (initArr m c main_arg4) (initArr m c main_arg5) (initArr m c main_arg6) := by
  funext r
  refine (congrArg _ (eq_ix1 r)).trans ((V9_v16 m outs c (r 0)).trans ?_)
  rw [h3, V7_v13, (V_arg m outs c main_arg5).2.2.2.2, V7_v14_bias, h2, V5_v7, V5_v9_slab, V5_v12_slab, h1, V3_v1, V3_v3_slab,
    V3_v6_slab, h0, (V_arg m outs c main_arg0).1, (V_arg m outs c main_arg1).1, V1_v0_bias]
  rfl

end Cert.KernelIdeal.Hand

end
-- ==== Proof.KI.PayIdeal.lean ====
import proofs.«139585_j60120952209906_1_alg».proof.Proof.Gen.KernelIdeal.Skeleton
import proofs.«139585_j60120952209906_1_alg».proof.Proof.TropSpec
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

section Layout
variable {α : Type} {a b c : ℕ}

theorem shapeCast_ab_a1b_apply (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

-- A coordinate below the extent is its own broadcast source, also when the extent is 1.
theorem val_eq_ite {n : ℕ} (q : Fin n) : q.val = if n = 1 then 0 else q.val := by
  split
  · have := q.isLt; omega
  · rfl

-- An [a', b', c] array broadcast along its unit axes to [a, b, c], read at (p, q, r).
theorem broadcastTo3_apply {a' b' : ℕ} (v : (⟨3, ![a', b', c]⟩ : Shape).Idx → α)
    (h : (⟨3, ![a', b', c]⟩ : Shape).Broadcasts ⟨3, ![a, b, c]⟩) (p : Fin a) (q : Fin b) (r : Fin c) (p' : Fin a')
    (q' : Fin b') (hp : p'.val = if a' = 1 then 0 else p.val) (hq : q'.val = if b' = 1 then 0 else q.val) :
    broadcastTo ⟨3, ![a, b, c]⟩ v h (ix3 p q r) = v (ix3 p' q' r) :=
  broadcastTo_apply v h (ix3 p q r) (ix3 p' q' r) fun ax => by
    match ax with
    | ⟨0, _⟩ => exact hp
    | ⟨1, _⟩ => exact hq
    | ⟨2, _⟩ => exact val_eq_ite r

-- If at (r, o, ·) A reads w[o', ·] and B reads x[r, ·], the maximum of A B over the last axis is the row maximum.
theorem contract_apply {b' : ℕ} (A B : FVec Ideal ⟨3, ![a, b, c]⟩ .f32) (x : (⟨2, ![a, c]⟩ : Shape).Idx → EReal)
    (w : (⟨2, ![b', c]⟩ : Shape).Idx → EReal) (h : (⟨3, ![a, b, c]⟩ : Shape).Reduces [2] ⟨2, ![a, b]⟩)
    (hφ : FKind.Formats .f32) (hacc : (0xFF800000#32 : BitVec FTy.f32.bits) = FKind.maximumf.neutral .f32 hφ)
    (r : Fin a) (o : Fin b) (o' : Fin b') (hA : ∀ k, A (ix3 r o k) = w (ix2 o' k)) (hB : ∀ k, B (ix3 r o k) = x (ix2 r k)) :
    multiReduction (F := Ideal) .maximumf [2] ⟨2, ![a, b]⟩ (mulf A B) 0xFF800000#32 h hφ hacc (ix2 r o)
      = Tropical.rowMax c (fun k => w (ix2 o' k)) (fun k => x (ix2 r k)) :=
  (Ideal.multiReduction_maximumf_single _ _ h hφ hacc (ix2 r o)).trans <|
    congrArg (fun f => (Finset.univ : Finset (Fin c)).fold max Tropical.bot32 f) <| funext fun k =>
      (congrArg (mulf A B) (funext fun d => by
        match d with
        | ⟨0, _⟩ => exact Fin.ext rfl
        | ⟨1, _⟩ => exact Fin.ext rfl
        | ⟨2, _⟩ => exact Fin.ext rfl)).trans (congrArg₂ (· * ·) (hA k) (hB k))

end Layout

section
variable (s : Vec Ideal S256x128 .f32) (b : Vec Ideal S1x128 .f32) (r : Fin 256) (o : Fin 128)

theorem k1_pay1_apply (j : S256x128.Idx) : k1_pay1 (F := Ideal) j = Tropical.bot32 := by
  unfold k1_pay1
  exact congrFun (shapeCast_self _ _) j

theorem k0_pay1_apply (j : S256x128.Idx) : k0_pay1 (F := Ideal) j = Tropical.bot32 := k1_pay1_apply j

theorem k2_pay1_apply (j : S256x128.Idx) : k2_pay1 (F := Ideal) j = Tropical.bot32 := k1_pay1_apply j

theorem k0_pay2_apply (x : Vec Ideal S256x3 .f32) (w : Vec Ideal S128x3 .f32) :
    k0_pay2 (F := Ideal) x w s (ix2 r o)
      = max (s (ix2 r o)) (Tropical.rowMax 3 (fun k => w (ix2 o k)) (fun k => x (ix2 r k))) := by
  unfold k0_pay2
  simp only [shapeCast_self]
  exact congrArg (max (s (ix2 r o))) (contract_apply _ _ x w _ _ _ r o o
    (fun k => (broadcastTo3_apply _ _ r o k 0 o rfl (val_eq_ite o)).trans (shapeCast_ab_1ab_apply _ _ 0 o k))
    (fun k => (broadcastTo3_apply _ _ r o k r 0 (val_eq_ite r) rfl).trans (shapeCast_ab_a1b_apply _ _ r 0 k)))

variable (x : Vec Ideal S256x128 .f32) (w : Vec Ideal S128x128 .f32)

theorem k1_pay2_apply : k1_pay2 (F := Ideal) x w s (ix2 r o)
    = max (s (ix2 r o)) (Tropical.rowMax 128 (fun k => w (ix2 o k)) (fun k => x (ix2 r k))) := by
  unfold k1_pay2
  simp only [shapeCast_self]
  exact congrArg (max (s (ix2 r o))) (contract_apply _ _ x w _ _ _ r o o
    (fun k => (broadcastTo3_apply _ _ r o k 0 o rfl (val_eq_ite o)).trans (shapeCast_ab_1ab_apply _ _ 0 o k))
    (fun k => (broadcastTo3_apply _ _ r o k r 0 (val_eq_ite r) rfl).trans (shapeCast_ab_a1b_apply _ _ r 0 k)))

theorem k2_pay2_apply : k2_pay2 (F := Ideal) x w s (ix2 r o)
    = max (s (ix2 r o)) (Tropical.rowMax 128 (fun k => w (ix2 o k)) (fun k => x (ix2 r k))) :=
  k1_pay2_apply s r o x w

theorem k1_pay3_apply : k1_pay3 (F := Ideal) s b (ix2 r o) = s (ix2 r o) + b (ix2 0 o) :=
  congrArg (s (ix2 r o) + ·) ((broadcastTo_1b_ab_apply _ _ r o).trans (congrFun (shapeCast_self _ _) _))

theorem k0_pay3_apply : k0_pay3 (F := Ideal) s b (ix2 r o) = s (ix2 r o) + b (ix2 0 o) := k1_pay3_apply s b r o

theorem k2_pay3_apply : k2_pay3 (F := Ideal) s b (ix2 r o) = s (ix2 r o) + b (ix2 0 o) := k1_pay3_apply s b r o

end

section
variable (s : Vec Ideal S256x1 .f32) (r : Fin 256) (o : Fin 1)

theorem k3_pay1_apply (j : S256x1.Idx) : k3_pay1 (F := Ideal) j = Tropical.bot32 := by
  unfold k3_pay1
  exact congrFun (shapeCast_self _ _) j

theorem k3_pay2_apply (x : Vec Ideal S256x128 .f32) (w : Vec Ideal S1x128 .f32) :
    k3_pay2 (F := Ideal) x w s (ix2 r o)
      = max (s (ix2 r o)) (Tropical.rowMax 128 (fun k => w (ix2 0 k)) (fun k => x (ix2 r k))) := by
  obtain rfl : o = 0 := Subsingleton.elim _ _
  unfold k3_pay2
  simp only [shapeCast_self]
  exact congrArg (max (s (ix2 r 0))) (contract_apply _ _ x w _ _ _ r 0 0
    (fun k => (broadcastTo3_apply _ _ r 0 k 0 0 rfl rfl).trans (shapeCast_ab_1ab_apply _ _ 0 0 k))
    (fun k => shapeCast_ab_a1b_apply _ _ r 0 k))

theorem k3_pay3_apply (b : Vec Ideal S1x1 .f32) : k3_pay3 (F := Ideal) s b (ix2 r o) = s (ix2 r o) + b (ix2 0 0) := by
  obtain rfl : o = 0 := Subsingleton.elim _ _
  exact congrArg (s (ix2 r 0) + ·) ((broadcastTo_1b_ab_apply _ _ r 0).trans (congrFun (shapeCast_self _ _) _))

end

-- Column n of a [256,1024] array lies in the [256,128] block with block indices (0, n / 128).
theorem col_block_mem (idx : Fin 2 → ℕ) (i : S256x1024.Idx) (e0 : idx 0 = 0) (e1 : idx 1 = (i 1).val / 128) (a : Fin 2) :
    idx a * S256x128.size a ≤ (i a).val ∧ (i a).val < idx a * S256x128.size a + S256x128.size a := by
  have h0 : (i 0).val < 256 := (i 0).isLt
  have h1 : (i 1).val < 1024 := (i 1).isLt
  match a with
  | ⟨0, _⟩ => show idx 0 * 256 ≤ (i 0).val ∧ (i 0).val < idx 0 * 256 + 256; rw [e0]; omega
  | ⟨1, _⟩ => show idx 1 * 128 ≤ (i 1).val ∧ (i 1).val < idx 1 * 128 + 128; rw [e1]; omega

end Cert.KernelIdeal.Hand

end
-- ==== Proof.TropAlg.lean ====
import proofs.«139585_j60120952209906_1_alg».proof.Proof.TropSpec

noncomputable section

namespace Tropical

def tile (i : ℕ) (f : Fin 1024 → EReal) : Fin 128 → EReal :=
  fun k => f ⟨(128 * i + k.val) % 1024, Nat.mod_lt _ (by norm_num)⟩

def accTiles (w x : Fin 1024 → EReal) : ℕ → EReal
  | 0 => max bot32 (rowMax 128 (tile 0 w) (tile 0 x))
  | n + 1 => max (accTiles w x n) (rowMax 128 (tile (n + 1) w) (tile (n + 1) x))

-- The folded maximum is the least upper bound of the starting value and the terms.
theorem rowMax_le_iff (I : ℕ) (w x : Fin I → EReal) (c : EReal) :
    rowMax I w x ≤ c ↔ bot32 ≤ c ∧ ∀ k, w k * x k ≤ c := by
  unfold rowMax
  rw [Finset.fold_max_le]
  simp

theorem max_bot32_rowMax (I : ℕ) (w x : Fin I → EReal) : max bot32 (rowMax I w x) = rowMax I w x :=
  max_eq_right ((rowMax_le_iff I w x _).mp le_rfl).1

-- The running maximum after blocks 0 … n is the least upper bound of the starting value and those blocks' terms.
theorem accTiles_le_iff (w x : Fin 1024 → EReal) (c : EReal) (n : ℕ) :
    accTiles w x n ≤ c ↔ bot32 ≤ c ∧ ∀ i, i ≤ n → ∀ k : Fin 128, tile i w k * tile i x k ≤ c := by
  induction n with
  | zero =>
    simp only [accTiles, max_le_iff, rowMax_le_iff, Nat.le_zero]
    exact ⟨fun ⟨h, _, h0⟩ => ⟨h, fun i hi k => hi ▸ h0 k⟩, fun ⟨h, h0⟩ => ⟨h, h, fun k => h0 0 rfl k⟩⟩
  | succ n ih =>
    simp only [accTiles, max_le_iff, rowMax_le_iff, ih]
    refine ⟨fun ⟨⟨h, hn⟩, _, hs⟩ => ⟨h, fun i hi k => ?_⟩,
      fun ⟨h, hall⟩ => ⟨⟨h, fun i hi k => hall i (Nat.le_succ_of_le hi) k⟩, h, fun k => hall (n + 1) le_rfl k⟩⟩
    rcases Nat.lt_or_ge i (n + 1) with hlt | hge
    · exact hn i (Nat.lt_succ_iff.mp hlt) k
    · exact le_antisymm hi hge ▸ hs k

-- Eight blocks of 128 exhaust the 1024 indices: the tiled running maximum ends at the whole row's maximum.
theorem accTiles_seven (w x : Fin 1024 → EReal) : accTiles w x 7 = rowMax 1024 w x := by
  refine eq_of_forall_ge_iff fun c => ?_
  rw [accTiles_le_iff, rowMax_le_iff]
  refine and_congr_right fun _ => ⟨fun h j => ?_, fun h i _ k => h _⟩
  have hj : (⟨(128 * (j.val / 128) + (⟨j.val % 128, Nat.mod_lt _ (by norm_num)⟩ : Fin 128).val) % 1024,
      Nat.mod_lt _ (by norm_num)⟩ : Fin 1024) = j := by
    apply Fin.ext
    have := j.isLt
    simp only
    omega
  have := h (j.val / 128) (by have := j.isLt; omega) ⟨j.val % 128, Nat.mod_lt _ (by norm_num)⟩
  simp only [tile, hj] at this
  exact this

-- Restarting at n % 8 = 0 and otherwise raising the predecessor by block n % 8's maximum gives the running maximum.
theorem run_eq_accTiles {N : ℕ} (s : (n : ℕ) → n < N → EReal) (w : ℕ → Fin 1024 → EReal) (x : Fin 1024 → EReal)
    (h0 : ∀ n h, n % 8 = 0 → s n h = max bot32 (rowMax 128 (tile (n % 8) (w (n / 8))) (tile (n % 8) x)))
    (hs : ∀ n (h : n + 1 < N), (n + 1) % 8 ≠ 0 → s (n + 1) h
      = max (s n (Nat.lt_of_succ_lt h)) (rowMax 128 (tile ((n + 1) % 8) (w ((n + 1) / 8))) (tile ((n + 1) % 8) x))) :
    ∀ n h, s n h = accTiles (w (n / 8)) x (n % 8)
  | 0, h => h0 0 h rfl
  | n + 1, h => by
    by_cases hm : (n + 1) % 8 = 0
    · rw [h0 _ h hm, hm]; rfl
    · rw [hs n h hm, run_eq_accTiles s w x h0 hs n, show (n + 1) / 8 = n / 8 by omega, show (n + 1) % 8 = n % 8 + 1 by omega]
      rfl

end Tropical

end
-- ==== Proof.KI.R0.Value.lean ====
import proofs.«139585_j60120952209906_1_alg».proof.Proof.KI.R0.Frame
import proofs.«139585_j60120952209906_1_alg».proof.Proof.KI.PayIdeal
import proofs.«139585_j60120952209906_1_alg».proof.Proof.TropAlg

noncomputable section

namespace Cert.KernelIdeal.Hand

open Idealize.ShloMosaic Idealize.ShloMosaic.ValueIdx Cert.KernelIdeal Cert.KernelIdeal.Gen

theorem coords0 : ∀ t : Fin cfg0.N, (cfg0.grid.coords t 1).val = 0 :=
  (by decide +kernel : ∀ t : Fin grid0.N, _)

theorem idx0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

variable (V : EntryV Ideal) (c : Dev nD)

abbrev layer0 : S256x1024.Idx → EReal :=
  Tropical.layer 256 1024 3 (V c (Pipeline.arrRef spec0 0)) (V c (Pipeline.arrRef spec0 1))
    (fun o => V c (Pipeline.arrRef spec0 2) (ix2 0 (o 0)))

-- Column 128 t + o of the output array, for a column o of point t's block.
abbrev col0 (t : Fin cfg0.N) (o : Fin 128) : Fin 1024 := ⟨(128 * t.val + o.val) % 1024, Nat.mod_lt _ (by norm_num)⟩

theorem xblk0_eq (t : Fin cfg0.N) (r : Fin 256) :
    (fun k : Fin 3 => (iblk0 V c 0 t : Vec Ideal S256x3 .f32) (ix2 r k))
      = fun k => (V c (Pipeline.arrRef spec0 0) : S256x3.Idx → EReal) (ix2 r k) := by
  obtain ⟨e0, e1, -⟩ := idx0 t
  funext k
  exact congrArg (V c (Pipeline.arrRef spec0 0)) (Shape.idx_ext₂
    (by show win0_0.index t 0 * 256 + 1 * r.val = r.val; rw [e0]; omega)
    (by show win0_0.index t 1 * 3 + 1 * k.val = k.val; rw [e1]; omega))

theorem wblk0_eq (t : Fin cfg0.N) (o : Fin 128) :
    (fun k : Fin 3 => (iblk0 V c 1 t : Vec Ideal S128x3 .f32) (ix2 o k))
      = fun k => (V c (Pipeline.arrRef spec0 1) : S1024x3.Idx → EReal) (ix2 (col0 t o) k) := by
  obtain ⟨-, -, e0, e1, -⟩ := idx0 t
  have hN : cfg0.N = 8 := N_0
  have ht := t.isLt
  funext k
  exact congrArg (V c (Pipeline.arrRef spec0 1)) (Shape.idx_ext₂
    (by show win0_1.index t 0 * 128 + 1 * o.val = (128 * t.val + o.val) % 1024; rw [e0]; omega)
    (by show win0_1.index t 1 * 3 + 1 * k.val = k.val; rw [e1]; omega))

theorem bblk0_apply (t : Fin cfg0.N) (o : Fin 128) :
    (iblk0 V c 2 t : Vec Ideal S1x128 .f32) (ix2 0 o)
      = (V c (Pipeline.arrRef spec0 2) : S1x1024.Idx → EReal) (ix2 0 (col0 t o)) := by
  obtain ⟨-, -, -, -, e0, e1, -⟩ := idx0 t
  have hN : cfg0.N = 8 := N_0
  have ht := t.isLt
  exact congrArg (V c (Pipeline.arrRef spec0 2)) (Shape.idx_ext₂
    (by show win0_2.index t 0 * 1 + 1 * 0 = 0; rw [e0])
    (by show win0_2.index t 1 * 128 + 1 * o.val = (128 * t.val + o.val) % 1024; rw [e1]; omega))

-- Every point is both the first and the last contraction step: after it the output block is the layer at its columns.
theorem out0_apply (t : Fin cfg0.N) (r : Fin 256) (o : Fin 128) :
    (outsAt0 V c t.val t.isLt).1 (ix2 r o) = layer0 V c (ix2 r (col0 t o)) := by
  rw [outsAt0_out V c t (by rw [coords0]), outsAt0_first V c t (coords0 t), k0_pay3_apply, k0_pay2_apply, k0_pay1_apply,
    Tropical.max_bot32_rowMax, bblk0_apply, wblk0_eq, xblk0_eq]
  rfl

theorem flushed0_eq (t : Fin cfg0.N) :
    (dat0 V c).flushed 3 t = ((cfg0.win 3).blk t).view.read (Elt Ideal) (layer0 V c) := by
  obtain ⟨-, -, -, -, -, -, e0, e1⟩ := idx0 t
  have hN : cfg0.N = 8 := N_0
  have ht := t.isLt
  show (cfg0.win 3).cut (grid0.coords t) ((dat0 V c).after 3 t) = _
  rw [after0_3]
  funext j
  rw [View.read_apply]
  obtain ⟨r, o, hx, hr, ho⟩ : ∃ (r : Fin 256) (o : Fin 128),
      (cfg0.win 3).xinj (grid0.coords t) j = ix2 r o ∧ (j 0).val = r.val ∧ (j 1).val = o.val :=
    ⟨j 0, j 1, funext fun a => by match a with | ⟨0, _⟩ => rfl | ⟨1, _⟩ => rfl, rfl, rfl⟩
  show (outsAt0 V c t.val t.isLt).1 ((cfg0.win 3).xinj _ j) = layer0 V c (((cfg0.win 3).blk t).view.emb j)
  rw [hx, out0_apply]
  exact congrArg (layer0 V c) (Shape.idx_ext₂
    (by show r.val = win0_3.index t 0 * 256 + 1 * (j 0).val; rw [e0, hr]; omega)
    (by show (128 * t.val + o.val) % 1024 = win0_3.index t 1 * 128 + 1 * (j 1).val; rw [e1, ho]; omega))

-- Column n of the output array lies in the block of point n / 128.
theorem cover0 (i : S256x1024.Idx) :
    ∃ t : Fin cfg0.N, (cfg0.win 3).flush t = true ∧ i ∈ ((cfg0.win 3).blk t).view.set := by
  have h1 : (i 1).val < 1024 := (i 1).isLt
  have ht : (i 1).val / 128 < cfg0.N := by rw [show cfg0.N = 8 from N_0]; omega
  obtain ⟨-, -, -, -, -, -, e0, e1⟩ := idx0 ⟨_, ht⟩
  refine ⟨⟨_, ht⟩, flush0_3 _, ?_⟩
  show i ∈ ((View.whole (Pipeline.arrRef spec0 3)).slice (win0_3.rect ⟨_, ht⟩)).set
  rw [View.set_slice_whole, Rect.mem_set_unit]
  exact col_block_mem _ i e0 e1

theorem final0 :
    (dat0 V c).arrAt 3 cfg0.N
      = Tropical.layer 256 1024 3 (V c (Pipeline.arrRef spec0 0)) (V c (Pipeline.arrRef spec0 1)) (fun o => V c (Pipeline.arrRef spec0 2) (ix2 0 (o 0))) :=
  (dat0 V c).arrAt_eq_of_cover 3 (layer0 V c) (fun t _ => flushed0_eq V c t) cover0

end Cert.KernelIdeal.Hand

end
-- ==== Proof.KI.R1.Value.lean ====
import proofs.«139585_j60120952209906_1_alg».proof.Proof.KI.R1.Frame
import proofs.«139585_j60120952209906_1_alg».proof.Proof.KI.PayIdeal
import proofs.«139585_j60120952209906_1_alg».proof.Proof.TropAlg

noncomputable section

namespace Cert.KernelIdeal.Hand

open Idealize.ShloMosaic Idealize.ShloMosaic.ValueIdx Cert.KernelIdeal Cert.KernelIdeal.Gen

theorem coords1 : ∀ t : Fin cfg1.N, (cfg1.grid.coords t 1).val = t.val % 8 :=
  (by decide +kernel : ∀ t : Fin grid1.N, (grid1.coords t 1).val = t.val % 8)

theorem idx1 : ∀ t : Fin cfg1.N, win1_0.index t (0 : Fin 2) = 0 ∧ win1_0.index t (1 : Fin 2) = t.val % 8
    ∧ win1_1.index t (0 : Fin 2) = t.val / 8 ∧ win1_1.index t (1 : Fin 2) = t.val % 8
    ∧ win1_2.index t (0 : Fin 2) = 0 ∧ win1_2.index t (1 : Fin 2) = t.val / 8
    ∧ win1_3.index t (0 : Fin 2) = 0 ∧ win1_3.index t (1 : Fin 2) = t.val / 8 :=
  (by decide +kernel : ∀ t : Fin grid1.N, _)

variable (V : EntryV Ideal) (c : Dev nD)

abbrev xrow1 (r : Fin 256) : Fin 1024 → EReal :=
  fun k => (V c (Pipeline.arrRef spec1 0) : S256x1024.Idx → EReal) (ix2 r k)

abbrev wrow1 (n : ℕ) : Fin 1024 → EReal :=
  fun k => (V c (Pipeline.arrRef spec1 1) : S1024x1024.Idx → EReal) (ix2 ⟨n % 1024, Nat.mod_lt _ (by norm_num)⟩ k)

abbrev layer1 : S256x1024.Idx → EReal :=
  Tropical.layer 256 1024 1024 (V c (Pipeline.arrRef spec1 0)) (V c (Pipeline.arrRef spec1 1))
    (fun o => V c (Pipeline.arrRef spec1 2) (ix2 0 (o 0)))

-- Column 128 (t / 8) + o of the output array, for a column o of point t's block.
abbrev col1 (t : Fin cfg1.N) (o : Fin 128) : Fin 1024 := ⟨(128 * (t.val / 8) + o.val) % 1024, Nat.mod_lt _ (by norm_num)⟩

-- The first input's block at point t, along the contraction axis, is block t % 8 of the batch row.
theorem xtile1 (t : Fin cfg1.N) (r : Fin 256) :
    (fun k : Fin 128 => (iblk1 V c 0 t : Vec Ideal S256x128 .f32) (ix2 r k)) = Tropical.tile (t.val % 8) (xrow1 V c r) := by
  obtain ⟨e0, e1, -⟩ := idx1 t
  funext k
  exact congrArg (V c (Pipeline.arrRef spec1 0)) (Shape.idx_ext₂
    (by show win1_0.index t 0 * 256 + 1 * r.val = r.val; rw [e0]; omega)
    (by show win1_0.index t 1 * 128 + 1 * k.val = (128 * (t.val % 8) + k.val) % 1024; rw [e1]; omega))

-- The second input's block at point t is block t % 8 of weight rows 128 (t / 8) ….
theorem wtile1 (t : Fin cfg1.N) (o : Fin 128) :
    (fun k : Fin 128 => (iblk1 V c 1 t : Vec Ideal S128x128 .f32) (ix2 o k))
      = Tropical.tile (t.val % 8) (wrow1 V c (128 * (t.val / 8) + o.val)) := by
  obtain ⟨-, -, e0, e1, -⟩ := idx1 t
  have hN : cfg1.N = 64 := N_1
  have ht := t.isLt
  funext k
  exact congrArg (V c (Pipeline.arrRef spec1 1)) (Shape.idx_ext₂
    (by show win1_1.index t 0 * 128 + 1 * o.val = (128 * (t.val / 8) + o.val) % 1024; rw [e0]; omega)
    (by show win1_1.index t 1 * 128 + 1 * k.val = (128 * (t.val % 8) + k.val) % 1024; rw [e1]; omega))

theorem bblk1_apply (t : Fin cfg1.N) (o : Fin 128) :
    (iblk1 V c 2 t : Vec Ideal S1x128 .f32) (ix2 0 o)
      = (V c (Pipeline.arrRef spec1 2) : S1x1024.Idx → EReal) (ix2 0 (col1 t o)) := by
  obtain ⟨-, -, -, -, e0, e1, -⟩ := idx1 t
  have hN : cfg1.N = 64 := N_1
  have ht := t.isLt
  exact congrArg (V c (Pipeline.arrRef spec1 2)) (Shape.idx_ext₂
    (by show win1_2.index t 0 * 1 + 1 * 0 = 0; rw [e0])
    (by show win1_2.index t 1 * 128 + 1 * o.val = (128 * (t.val / 8) + o.val) % 1024; rw [e1]; omega))

-- The accumulator after point n is the running maximum over the contraction blocks 0 … n % 8 of output tile n / 8.
theorem accRun1 (r : Fin 256) (o : Fin 128) (n : ℕ) (h : n < cfg1.N) :
    (outsAt1 V c n h).2 (ix2 r o) = Tropical.accTiles (wrow1 V c (128 * (n / 8) + o.val)) (xrow1 V c r) (n % 8) :=
  Tropical.run_eq_accTiles (fun n h => (outsAt1 V c n h).2 (ix2 r o)) (fun q => wrow1 V c (128 * q + o.val)) _
    (fun n h hm => (congrFun (outsAt1_first V c ⟨n, h⟩ ((coords1 _).trans hm)) (ix2 r o)).trans <| by
      rw [k1_pay2_apply, k1_pay1_apply, wtile1, xtile1])
    (fun n h hm => (congrFun (outsAt1_next V c ⟨n + 1, h⟩ fun e => hm ((coords1 _).symm.trans e)) (ix2 r o)).trans <| by
      rw [k1_pay2_apply, wtile1, xtile1]
      rfl) n h

-- After the last contraction step the output block is the layer at the tile's columns.
theorem out1_apply (t : Fin cfg1.N) (h7 : t.val % 8 = 7) (r : Fin 256) (o : Fin 128) :
    (outsAt1 V c t.val t.isLt).1 (ix2 r o) = layer1 V c (ix2 r (col1 t o)) := by
  rw [outsAt1_out V c t (by rw [coords1, h7]), k1_pay3_apply, accRun1, h7, Tropical.accTiles_seven, bblk1_apply]
  rfl

theorem flushed1_eq (t : Fin cfg1.N) (hf : (cfg1.win 3).flush t = true) :
    (dat1 V c).flushed 3 t = ((cfg1.win 3).blk t).view.read (Elt Ideal) (layer1 V c) := by
  obtain ⟨-, -, -, -, -, -, e0, e1⟩ := idx1 t
  have hN : cfg1.N = 64 := N_1
  have ht := t.isLt
  show (cfg1.win 3).cut (grid1.coords t) ((dat1 V c).after 3 t) = _
  rw [after1_3]
  funext j
  rw [View.read_apply]
  obtain ⟨r, o, hx, hr, ho⟩ : ∃ (r : Fin 256) (o : Fin 128),
      (cfg1.win 3).xinj (grid1.coords t) j = ix2 r o ∧ (j 0).val = r.val ∧ (j 1).val = o.val :=
    ⟨j 0, j 1, funext fun a => by match a with | ⟨0, _⟩ => rfl | ⟨1, _⟩ => rfl, rfl, rfl⟩
  show (outsAt1 V c t.val t.isLt).1 ((cfg1.win 3).xinj _ j) = layer1 V c (((cfg1.win 3).blk t).view.emb j)
  rw [hx, out1_apply V c t ((flush1_3 t).mp hf)]
  exact congrArg (layer1 V c) (Shape.idx_ext₂
    (by show r.val = win1_3.index t 0 * 256 + 1 * (j 0).val; rw [e0, hr]; omega)
    (by show (128 * (t.val / 8) + o.val) % 1024 = win1_3.index t 1 * 128 + 1 * (j 1).val; rw [e1, ho]; omega))

-- Column n of the output array lies in the block of the last step of output tile n / 128.
theorem cover1 (i : S256x1024.Idx) :
    ∃ t : Fin cfg1.N, (cfg1.win 3).flush t = true ∧ i ∈ ((cfg1.win 3).blk t).view.set := by
  have h1 : (i 1).val < 1024 := (i 1).isLt
  have ht : 8 * ((i 1).val / 128) + 7 < cfg1.N := by rw [show cfg1.N = 64 from N_1]; omega
  obtain ⟨-, -, -, -, -, -, e0, e1⟩ := idx1 ⟨_, ht⟩
  refine ⟨⟨_, ht⟩, (flush1_3 _).mpr (by show (8 * ((i 1).val / 128) + 7) % 8 = 7; omega), ?_⟩
  show i ∈ ((View.whole (Pipeline.arrRef spec1 3)).slice (win1_3.rect ⟨_, ht⟩)).set
  rw [View.set_slice_whole, Rect.mem_set_unit]
  exact col_block_mem _ i e0 (e1.trans (by show (8 * ((i 1).val / 128) + 7) / 8 = _; omega))

theorem final1 :
    (dat1 V c).arrAt 3 cfg1.N
      = Tropical.layer 256 1024 1024 (V c (Pipeline.arrRef spec1 0)) (V c (Pipeline.arrRef spec1 1)) (fun o => V c (Pipeline.arrRef spec1 2) (ix2 0 (o 0))) :=
  (dat1 V c).arrAt_eq_of_cover 3 (layer1 V c) (flushed1_eq V c) cover1

end Cert.KernelIdeal.Hand

end
-- ==== Proof.KI.R2.Value.lean ====
import proofs.«139585_j60120952209906_1_alg».proof.Proof.KI.R2.Frame
import proofs.«139585_j60120952209906_1_alg».proof.Proof.KI.PayIdeal
import proofs.«139585_j60120952209906_1_alg».proof.Proof.TropAlg

noncomputable section

namespace Cert.KernelIdeal.Hand

open Idealize.ShloMosaic Idealize.ShloMosaic.ValueIdx Cert.KernelIdeal Cert.KernelIdeal.Gen

theorem coords2 : ∀ t : Fin cfg2.N, (cfg2.grid.coords t 1).val = t.val % 8 :=
  (by decide +kernel : ∀ t : Fin grid2.N, (grid2.coords t 1).val = t.val % 8)

theorem idx2 : ∀ t : Fin cfg2.N, win2_0.index t (0 : Fin 2) = 0 ∧ win2_0.index t (1 : Fin 2) = t.val % 8
    ∧ win2_1.index t (0 : Fin 2) = t.val / 8 ∧ win2_1.index t (1 : Fin 2) = t.val % 8
    ∧ win2_2.index t (0 : Fin 2) = 0 ∧ win2_2.index t (1 : Fin 2) = t.val / 8
    ∧ win2_3.index t (0 : Fin 2) = 0 ∧ win2_3.index t (1 : Fin 2) = t.val / 8 :=
  (by decide +kernel : ∀ t : Fin grid2.N, _)

variable (V : EntryV Ideal) (c : Dev nD)

abbrev xrow2 (r : Fin 256) : Fin 1024 → EReal :=
  fun k => (V c (Pipeline.arrRef spec2 0) : S256x1024.Idx → EReal) (ix2 r k)

abbrev wrow2 (n : ℕ) : Fin 1024 → EReal :=
  fun k => (V c (Pipeline.arrRef spec2 1) : S1024x1024.Idx → EReal) (ix2 ⟨n % 1024, Nat.mod_lt _ (by norm_num)⟩ k)

abbrev layer2 : S256x1024.Idx → EReal :=
  Tropical.layer 256 1024 1024 (V c (Pipeline.arrRef spec2 0)) (V c (Pipeline.arrRef spec2 1))
    (fun o => V c (Pipeline.arrRef spec2 2) (ix2 0 (o 0)))

-- Column 128 (t / 8) + o of the output array, for a column o of point t's block.
abbrev col2 (t : Fin cfg2.N) (o : Fin 128) : Fin 1024 := ⟨(128 * (t.val / 8) + o.val) % 1024, Nat.mod_lt _ (by norm_num)⟩

-- The first input's block at point t, along the contraction axis, is block t % 8 of the batch row.
theorem xtile2 (t : Fin cfg2.N) (r : Fin 256) :
    (fun k : Fin 128 => (iblk2 V c 0 t : Vec Ideal S256x128 .f32) (ix2 r k)) = Tropical.tile (t.val % 8) (xrow2 V c r) := by
  obtain ⟨e0, e1, -⟩ := idx2 t
  funext k
  exact congrArg (V c (Pipeline.arrRef spec2 0)) (Shape.idx_ext₂
    (by show win2_0.index t 0 * 256 + 1 * r.val = r.val; rw [e0]; omega)
    (by show win2_0.index t 1 * 128 + 1 * k.val = (128 * (t.val % 8) + k.val) % 1024; rw [e1]; omega))

-- The second input's block at point t is block t % 8 of weight rows 128 (t / 8) ….
theorem wtile2 (t : Fin cfg2.N) (o : Fin 128) :
    (fun k : Fin 128 => (iblk2 V c 1 t : Vec Ideal S128x128 .f32) (ix2 o k))
      = Tropical.tile (t.val % 8) (wrow2 V c (128 * (t.val / 8) + o.val)) := by
  obtain ⟨-, -, e0, e1, -⟩ := idx2 t
  have hN : cfg2.N = 64 := N_2
  have ht := t.isLt
  funext k
  exact congrArg (V c (Pipeline.arrRef spec2 1)) (Shape.idx_ext₂
    (by show win2_1.index t 0 * 128 + 1 * o.val = (128 * (t.val / 8) + o.val) % 1024; rw [e0]; omega)
    (by show win2_1.index t 1 * 128 + 1 * k.val = (128 * (t.val % 8) + k.val) % 1024; rw [e1]; omega))

theorem bblk2_apply (t : Fin cfg2.N) (o : Fin 128) :
    (iblk2 V c 2 t : Vec Ideal S1x128 .f32) (ix2 0 o)
      = (V c (Pipeline.arrRef spec2 2) : S1x1024.Idx → EReal) (ix2 0 (col2 t o)) := by
  obtain ⟨-, -, -, -, e0, e1, -⟩ := idx2 t
  have hN : cfg2.N = 64 := N_2
  have ht := t.isLt
  exact congrArg (V c (Pipeline.arrRef spec2 2)) (Shape.idx_ext₂
    (by show win2_2.index t 0 * 1 + 1 * 0 = 0; rw [e0])
    (by show win2_2.index t 1 * 128 + 1 * o.val = (128 * (t.val / 8) + o.val) % 1024; rw [e1]; omega))

-- The accumulator after point n is the running maximum over the contraction blocks 0 … n % 8 of output tile n / 8.
theorem accRun2 (r : Fin 256) (o : Fin 128) (n : ℕ) (h : n < cfg2.N) :
    (outsAt2 V c n h).2 (ix2 r o) = Tropical.accTiles (wrow2 V c (128 * (n / 8) + o.val)) (xrow2 V c r) (n % 8) :=
  Tropical.run_eq_accTiles (fun n h => (outsAt2 V c n h).2 (ix2 r o)) (fun q => wrow2 V c (128 * q + o.val)) _
    (fun n h hm => (congrFun (outsAt2_first V c ⟨n, h⟩ ((coords2 _).trans hm)) (ix2 r o)).trans <| by
      rw [k2_pay2_apply, k2_pay1_apply, wtile2, xtile2])
    (fun n h hm => (congrFun (outsAt2_next V c ⟨n + 1, h⟩ fun e => hm ((coords2 _).symm.trans e)) (ix2 r o)).trans <| by
      rw [k2_pay2_apply, wtile2, xtile2]
      rfl) n h

-- After the last contraction step the output block is the layer at the tile's columns.
theorem out2_apply (t : Fin cfg2.N) (h7 : t.val % 8 = 7) (r : Fin 256) (o : Fin 128) :
    (outsAt2 V c t.val t.isLt).1 (ix2 r o) = layer2 V c (ix2 r (col2 t o)) := by
  rw [outsAt2_out V c t (by rw [coords2, h7]), k2_pay3_apply, accRun2, h7, Tropical.accTiles_seven, bblk2_apply]
  rfl

theorem flushed2_eq (t : Fin cfg2.N) (hf : (cfg2.win 3).flush t = true) :
    (dat2 V c).flushed 3 t = ((cfg2.win 3).blk t).view.read (Elt Ideal) (layer2 V c) := by
  obtain ⟨-, -, -, -, -, -, e0, e1⟩ := idx2 t
  have hN : cfg2.N = 64 := N_2
  have ht := t.isLt
  show (cfg2.win 3).cut (grid2.coords t) ((dat2 V c).after 3 t) = _
  rw [after2_3]
  funext j
  rw [View.read_apply]
  obtain ⟨r, o, hx, hr, ho⟩ : ∃ (r : Fin 256) (o : Fin 128),
      (cfg2.win 3).xinj (grid2.coords t) j = ix2 r o ∧ (j 0).val = r.val ∧ (j 1).val = o.val :=
    ⟨j 0, j 1, funext fun a => by match a with | ⟨0, _⟩ => rfl | ⟨1, _⟩ => rfl, rfl, rfl⟩
  show (outsAt2 V c t.val t.isLt).1 ((cfg2.win 3).xinj _ j) = layer2 V c (((cfg2.win 3).blk t).view.emb j)
  rw [hx, out2_apply V c t ((flush2_3 t).mp hf)]
  exact congrArg (layer2 V c) (Shape.idx_ext₂
    (by show r.val = win2_3.index t 0 * 256 + 1 * (j 0).val; rw [e0, hr]; omega)
    (by show (128 * (t.val / 8) + o.val) % 1024 = win2_3.index t 1 * 128 + 1 * (j 1).val; rw [e1, ho]; omega))

-- Column n of the output array lies in the block of the last step of output tile n / 128.
theorem cover2 (i : S256x1024.Idx) :
    ∃ t : Fin cfg2.N, (cfg2.win 3).flush t = true ∧ i ∈ ((cfg2.win 3).blk t).view.set := by
  have h1 : (i 1).val < 1024 := (i 1).isLt
  have ht : 8 * ((i 1).val / 128) + 7 < cfg2.N := by rw [show cfg2.N = 64 from N_2]; omega
  obtain ⟨-, -, -, -, -, -, e0, e1⟩ := idx2 ⟨_, ht⟩
  refine ⟨⟨_, ht⟩, (flush2_3 _).mpr (by show (8 * ((i 1).val / 128) + 7) % 8 = 7; omega), ?_⟩
  show i ∈ ((View.whole (Pipeline.arrRef spec2 3)).slice (win2_3.rect ⟨_, ht⟩)).set
  rw [View.set_slice_whole, Rect.mem_set_unit]
  exact col_block_mem _ i e0 (e1.trans (by show (8 * ((i 1).val / 128) + 7) / 8 = _; omega))

theorem final2 :
    (dat2 V c).arrAt 3 cfg2.N
      = Tropical.layer 256 1024 1024 (V c (Pipeline.arrRef spec2 0)) (V c (Pipeline.arrRef spec2 1)) (fun o => V c (Pipeline.arrRef spec2 2) (ix2 0 (o 0))) :=
  (dat2 V c).arrAt_eq_of_cover 3 (layer2 V c) (flushed2_eq V c) cover2

end Cert.KernelIdeal.Hand

end
-- ==== Proof.KI.R3.Value.lean ====
import proofs.«139585_j60120952209906_1_alg».proof.Proof.KI.R3.Frame
import proofs.«139585_j60120952209906_1_alg».proof.Proof.KI.PayIdeal
import proofs.«139585_j60120952209906_1_alg».proof.Proof.TropAlg

noncomputable section

namespace Cert.KernelIdeal.Hand

open Idealize.ShloMosaic Idealize.ShloMosaic.ValueIdx Cert.KernelIdeal Cert.KernelIdeal.Gen

theorem coords3 : ∀ t : Fin cfg3.N, (cfg3.grid.coords t 1).val = t.val % 8 :=
  (by decide +kernel : ∀ t : Fin grid3.N, (grid3.coords t 1).val = t.val % 8)

theorem idx3 : ∀ t : Fin cfg3.N, win3_0.index t (0 : Fin 2) = 0 ∧ win3_0.index t (1 : Fin 2) = t.val % 8
    ∧ win3_1.index t (0 : Fin 2) = 0 ∧ win3_1.index t (1 : Fin 2) = t.val % 8
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

variable (V : EntryV Ideal) (c : Dev nD)

abbrev xrow3 (r : Fin 256) : Fin 1024 → EReal :=
  fun k => (V c (Pipeline.arrRef spec3 0) : S256x1024.Idx → EReal) (ix2 r k)

abbrev wrow3 : Fin 1024 → EReal :=
  fun k => (V c (Pipeline.arrRef spec3 1) : S1x1024.Idx → EReal) (ix2 0 k)

abbrev layer3 : Vec Ideal S256x1 .f32 :=
  Tropical.layer 256 1 1024 (V c (Pipeline.arrRef spec3 0)) (V c (Pipeline.arrRef spec3 1))
    (fun o => V c (Pipeline.arrRef spec3 2) (ix2 0 (o 0)))

-- The first input's block at point t, along the contraction axis, is block t % 8 of the batch row.
theorem xtile3 (t : Fin cfg3.N) (r : Fin 256) :
    (fun k : Fin 128 => (iblk3 V c 0 t : Vec Ideal S256x128 .f32) (ix2 r k)) = Tropical.tile (t.val % 8) (xrow3 V c r) := by
  obtain ⟨e0, e1, -⟩ := idx3 t
  funext k
  exact congrArg (V c (Pipeline.arrRef spec3 0)) (Shape.idx_ext₂
    (by show win3_0.index t 0 * 256 + 1 * r.val = r.val; rw [e0]; omega)
    (by show win3_0.index t 1 * 128 + 1 * k.val = (128 * (t.val % 8) + k.val) % 1024; rw [e1]; omega))

theorem wtile3 (t : Fin cfg3.N) :
    (fun k : Fin 128 => (iblk3 V c 1 t : Vec Ideal S1x128 .f32) (ix2 0 k)) = Tropical.tile (t.val % 8) (wrow3 V c) := by
  obtain ⟨-, -, e0, e1, -⟩ := idx3 t
  funext k
  exact congrArg (V c (Pipeline.arrRef spec3 1)) (Shape.idx_ext₂
    (by show win3_1.index t 0 * 1 + 1 * 0 = 0; rw [e0])
    (by show win3_1.index t 1 * 128 + 1 * k.val = (128 * (t.val % 8) + k.val) % 1024; rw [e1]; omega))

theorem bblk3_apply (t : Fin cfg3.N) :
    (iblk3 V c 2 t : Vec Ideal S1x1 .f32) (ix2 0 0) = (V c (Pipeline.arrRef spec3 2) : S1x1.Idx → EReal) (ix2 0 0) := by
  obtain ⟨-, -, -, -, e0, e1, -⟩ := idx3 t
  exact congrArg (V c (Pipeline.arrRef spec3 2)) (Shape.idx_ext₂
    (by show win3_2.index t 0 * 1 + 1 * 0 = 0; rw [e0])
    (by show win3_2.index t 1 * 1 + 1 * 0 = 0; rw [e1]))

-- The accumulator after point n is the running maximum over the contraction blocks 0 … n % 8.
theorem accRun3 (r : Fin 256) (o : Fin 1) (n : ℕ) (h : n < cfg3.N) :
    (outsAt3 V c n h).2 (ix2 r o) = Tropical.accTiles (wrow3 V c) (xrow3 V c r) (n % 8) :=
  Tropical.run_eq_accTiles (fun n h => (outsAt3 V c n h).2 (ix2 r o)) (fun _ => wrow3 V c) _
    (fun n h hm => (congrFun (outsAt3_first V c ⟨n, h⟩ ((coords3 _).trans hm)) (ix2 r o)).trans <| by
      rw [k3_pay2_apply, k3_pay1_apply, wtile3, xtile3])
    (fun n h hm => (congrFun (outsAt3_next V c ⟨n + 1, h⟩ fun e => hm ((coords3 _).symm.trans e)) (ix2 r o)).trans <| by
      rw [k3_pay2_apply, wtile3, xtile3]
      rfl) n h

-- After the last contraction step the output block is the layer.
theorem out3_eq (t : Fin cfg3.N) (h7 : t.val % 8 = 7) : (outsAt3 V c t.val t.isLt).1 = layer3 V c := by
  funext j
  obtain ⟨r, o, rfl⟩ : ∃ (r : Fin 256) (o : Fin 1), j = ix2 r o := ⟨j 0, j 1, eq_ix2 j⟩
  obtain rfl : o = 0 := Subsingleton.elim _ _
  rw [outsAt3_out V c t (by rw [coords3, h7]), k3_pay3_apply, accRun3, h7, Tropical.accTiles_seven, bblk3_apply]
  rfl

-- The output block starts at (0, 0) of the output array at every point: it is the whole array.
theorem off3 (t : Fin cfg3.N) : (fun a => win3_3.index t a * main_v15.ty.shape.size a) = fun _ => 0 :=
  funext fun a => by
    obtain ⟨-, -, -, -, -, -, e0, e1⟩ := idx3 t
    match a with
    | ⟨0, _⟩ => show win3_3.index t 0 * 256 = 0; rw [e0]
    | ⟨1, _⟩ => show win3_3.index t 1 * 1 = 0; rw [e1]

theorem flushed3_eq (t : Fin cfg3.N) (hf : (cfg3.win 3).flush t = true) :
    (dat3 V c).flushed 3 t = ((cfg3.win 3).blk t).view.read (Elt Ideal) (layer3 V c) := by
  show (cfg3.win 3).cut (grid3.coords t) ((dat3 V c).after 3 t) = _
  rw [after3_3, out3_eq V c t ((flush3_3 t).mp hf)]
  exact (Memref.read_access_unit_zero (Elt Ideal) main_v15 (off3 t) (fun a => by rw [congrFun (off3 t) a]; simp) (layer3 V c)).symm

theorem final3 :
    (dat3 V c).arrAt 3 cfg3.N
      = Tropical.layer 256 1 1024 (V c (Pipeline.arrRef spec3 0)) (V c (Pipeline.arrRef spec3 1)) (fun o => V c (Pipeline.arrRef spec3 2) (ix2 0 (o 0))) :=
  (dat3 V c).arrAt_eq_of_cover 3 (layer3 V c) (flushed3_eq V c) fun i => ⟨t3_7, (flush3_3 t3_7).mpr rfl, by
    show i ∈ ((View.whole main_v15).slice (win3_3.rect t3_7)).set
    rw [View.set_slice_whole]
    exact View.mem_set_unit_zero (S := S256x1) (off3 t3_7) _ i⟩

end Cert.KernelIdeal.Hand

end
-- ==== Proof.KI.NetValue.lean ====
import proofs.«139585_j60120952209906_1_alg».proof.Proof.KI.HostReads
import proofs.«139585_j60120952209906_1_alg».proof.Proof.KI.Regs
import proofs.«139585_j60120952209906_1_alg».proof.Proof.KI.R0.Value
import proofs.«139585_j60120952209906_1_alg».proof.Proof.KI.R1.Value
import proofs.«139585_j60120952209906_1_alg».proof.Proof.KI.R2.Value
import proofs.«139585_j60120952209906_1_alg».proof.Proof.KI.R3.Value

noncomputable section

namespace Cert.KernelIdeal.Hand

open Idealize.ShloMosaic Idealize.ShloMosaic.TcCoe Idealize.ShloMosaic.ValueIdx Idealize.SL.Sem
open Cert.KernelIdeal

-- Each region leaves the layer of what it reads, and the operations between the regions only re-index arrays.
theorem net_value (m : (ℓ : Loc nD τ sig) → Buf (Elt Ideal) ℓ) (c : Dev nD) :
    Gen.V9 m (outs m) c main_v16
      = Tropical.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  net_value_of m (outs m) c
    ((outs_2 m c).trans (final0 (E1 m) c))
    ((outs_4 m c).trans (final1 (E3 m) c))
    ((outs_6 m c).trans (final2 (E5 m) c))
    ((outs_8 m c).trans (final3 (E7 m) c))

end Cert.KernelIdeal.Hand

end
-- ==== Proof.RefValue.lean ====
import proofs.«139585_j60120952209906_1_alg».proof.Proof.Gen.ReferenceIdeal.Read
import proofs.«139585_j60120952209906_1_alg».proof.Proof.TropSpec
import Idealize.ShloMosaic.PureOps.Ideal.Laws

noncomputable section

namespace Cert.ReferenceIdeal.RefValue

open Idealize.ShloMosaic Idealize.ShloMosaic.TcCoe Idealize.SL.Sem
open Cert.ReferenceIdeal

section Layers

open Cert.ReferenceIdeal.Gen Cert.ReferenceIdeal.Read Idealize.ShloMosaic.ValueIdx Tropical

-- The maximum over the last axis, folded from the literal, read at (r, o).
theorem reduceMax_last {B O I : ℕ} (y : FVec Ideal ⟨3, ![B, O, I]⟩ .f32)
    (h' : (⟨3, ![B, O, I]⟩ : Shape).ReducesTo [2] (⟨2, ![B, O]⟩ : Shape))
    (h : (⟨3, ![B, O, I]⟩ : Shape).Reduces [2] (⟨2, ![B, O]⟩ : Shape)) (hu : 0 < (⟨0, ![]⟩ : Shape).numel)
    (r : Fin B) (o : Fin O) :
    Host.reduce FloatOps.maximumf y (constant (F := Ideal) (⟨0, ![]⟩ : Shape) .f32 0xFF800000#32) h' hu (ix2 r o)
      = (Finset.univ : Finset (Fin I)).fold max bot32 (fun k => y (ix3 r o k)) := by
  rw [Host.reduce_eq_fold_single FloatOps.maximumf y _ h' h hu]
  exact congrArg (fun f => Finset.fold max bot32 f (Finset.univ : Finset (Fin I))) <| funext fun k =>
    congrArg y (funext fun c => Fin.ext (by fin_cases c <;> rfl))

-- The row-major position o * 1024 + k splits back into (o, k).
theorem split_pos (o k : Fin 1024) : (o.val * 1024 + k.val) / 1024 % 1024 = o.val ∧ (o.val * 1024 + k.val) % 1024 = k.val := by
  omega

variable (x0 : (⟨S256x3, .f32⟩ : BufTy).Contents (Elt Ideal)) (x1 : (⟨S1024x3, .f32⟩ : BufTy).Contents (Elt Ideal))
  (x2 : (⟨S1024, .f32⟩ : BufTy).Contents (Elt Ideal)) (x3 : (⟨S2x1024x1024, .f32⟩ : BufTy).Contents (Elt Ideal))
  (x4 : (⟨S2x1024, .f32⟩ : BufTy).Contents (Elt Ideal)) (x5 : (⟨S1x1024, .f32⟩ : BufTy).Contents (Elt Ideal))
  (x6 : (⟨S1, .f32⟩ : BufTy).Contents (Elt Ideal))

theorem layer1 : val_main_v8 (F := Ideal) x0 x1 x2 = Tropical.layer 256 1024 3 x0 x1 x2 := by
  funext j
  obtain ⟨r, o, rfl⟩ : ∃ (r : Fin 256) (o : Fin 1024), j = ix2 r o := ⟨j 0, j 1, eq_ix2 j⟩
  have hb : idx_main_v6 (idx_main_v7 (ix2 r o)) = ix1 o := funext fun a => Fin.ext (by match a with | ⟨0, _⟩ => rfl)
  have hw : ∀ k : Fin 3, idx_main_v0 (idx_main_v2 (ix3 r o k)) = ix2 o k := fun k => Shape.idx_ext₂ rfl rfl
  have hx : ∀ k : Fin 3, idx_main_v1 (idx_main_v3 (ix3 r o k)) = ix2 r k := fun k => Shape.idx_ext₂ rfl rfl
  rw [val_main_v8_apply, val_main_v7_apply, val_main_v6_apply, hb]
  unfold val_main_v5 val_main_cst
  rw [reduceMax_last _ _ (by decide) _ r o]
  simp only [val_main_v4_apply, val_main_v2_apply, val_main_v0_apply, val_main_v3_apply, val_main_v1_apply, hw, hx,
    Ideal.mulf_def, Ideal.addf_def]
  rfl

theorem layer2 : val_main_v21 (F := Ideal) x0 x1 x2 x3 x4
    = Tropical.layer 256 1024 1024 (val_main_v8 (F := Ideal) x0 x1 x2) (slabW 0 x3) (slabB 0 x4) := by
  funext j
  obtain ⟨r, o, rfl⟩ : ∃ (r : Fin 256) (o : Fin 1024), j = ix2 r o := ⟨j 0, j 1, eq_ix2 j⟩
  have hb : idx_main_v11 (idx_main_v12 (idx_main_v19 (idx_main_v20 (ix2 r o)))) = ix2 (0 : Fin 2) o :=
    Shape.idx_ext₂ rfl (Nat.mod_eq_of_lt o.isLt)
  have hw : ∀ k : Fin 1024, idx_main_v9 (idx_main_v10 (idx_main_v13 (idx_main_v15 (ix3 r o k)))) = ix3 (0 : Fin 2) o k :=
    fun k => funext fun a => Fin.ext (by
      match a with
      | ⟨0, _⟩ => rfl
      | ⟨1, _⟩ => exact (split_pos o k).1
      | ⟨2, _⟩ => exact (split_pos o k).2)
  have hx : ∀ k : Fin 1024, idx_main_v14 (idx_main_v16 (ix3 r o k)) = ix2 r k := fun k => Shape.idx_ext₂ rfl rfl
  rw [val_main_v21_apply, val_main_v20_apply, val_main_v19_apply, val_main_v12_apply, val_main_v11_apply, hb]
  unfold val_main_v18 val_main_cst_0
  rw [reduceMax_last _ _ (by decide) _ r o]
  simp only [val_main_v17_apply, val_main_v15_apply, val_main_v13_apply, val_main_v10_apply, val_main_v9_apply,
    val_main_v16_apply, val_main_v14_apply, hw, hx, Ideal.mulf_def, Ideal.addf_def]
  generalize val_main_v8 (F := Ideal) x0 x1 x2 = y
  rfl

theorem layer3 : val_main_v34 (F := Ideal) x0 x1 x2 x3 x4
    = Tropical.layer 256 1024 1024 (val_main_v21 (F := Ideal) x0 x1 x2 x3 x4) (slabW 1 x3) (slabB 1 x4) := by
  funext j
  obtain ⟨r, o, rfl⟩ : ∃ (r : Fin 256) (o : Fin 1024), j = ix2 r o := ⟨j 0, j 1, eq_ix2 j⟩
  have hb : idx_main_v24 (idx_main_v25 (idx_main_v32 (idx_main_v33 (ix2 r o)))) = ix2 (1 : Fin 2) o :=
    Shape.idx_ext₂ rfl (Nat.mod_eq_of_lt o.isLt)
  have hw : ∀ k : Fin 1024, idx_main_v22 (idx_main_v23 (idx_main_v26 (idx_main_v28 (ix3 r o k)))) = ix3 (1 : Fin 2) o k :=
    fun k => funext fun a => Fin.ext (by
      match a with
      | ⟨0, _⟩ => rfl
      | ⟨1, _⟩ => exact (split_pos o k).1
      | ⟨2, _⟩ => exact (split_pos o k).2)
  have hx : ∀ k : Fin 1024, idx_main_v27 (idx_main_v29 (ix3 r o k)) = ix2 r k := fun k => Shape.idx_ext₂ rfl rfl
  rw [val_main_v34_apply, val_main_v33_apply, val_main_v32_apply, val_main_v25_apply, val_main_v24_apply, hb]
  unfold val_main_v31 val_main_cst_1
  rw [reduceMax_last _ _ (by decide) _ r o]
  simp only [val_main_v30_apply, val_main_v28_apply, val_main_v26_apply, val_main_v23_apply, val_main_v22_apply,
    val_main_v29_apply, val_main_v27_apply, hw, hx, Ideal.mulf_def, Ideal.addf_def]
  generalize val_main_v21 (F := Ideal) x0 x1 x2 x3 x4 = y
  rfl

theorem layer4 : val_main_v42 (F := Ideal) x0 x1 x2 x3 x4 x5 x6
    = Tropical.layer 256 1 1024 (val_main_v34 (F := Ideal) x0 x1 x2 x3 x4) x5 x6 := by
  funext j
  obtain ⟨r, z, rfl⟩ : ∃ (r : Fin 256) (z : Fin 1), j = ix2 r z := ⟨j 0, j 1, eq_ix2 j⟩
  obtain rfl : z = 0 := Subsingleton.elim _ _
  have hb : idx_main_v40 (idx_main_v41 (ix2 r (0 : Fin 1))) = ix1 (0 : Fin 1) :=
    funext fun a => Fin.ext (by match a with | ⟨0, _⟩ => rfl)
  have hw : ∀ k : Fin 1024, idx_main_v35 (idx_main_v37 (ix3 r (0 : Fin 1) k)) = ix2 (0 : Fin 1) k := fun k => Shape.idx_ext₂ rfl rfl
  have hx : ∀ k : Fin 1024, idx_main_v36 (ix3 r (0 : Fin 1) k) = ix2 r k := fun k => Shape.idx_ext₂ rfl rfl
  rw [val_main_v42_apply, val_main_v41_apply, val_main_v40_apply, hb]
  unfold val_main_v39 val_main_cst_2
  rw [reduceMax_last _ _ (by decide) _ r (0 : Fin 1)]
  simp only [val_main_v38_apply, val_main_v37_apply, val_main_v35_apply, val_main_v36_apply, hw, hx,
    Ideal.mulf_def, Ideal.addf_def]
  generalize val_main_v34 (F := Ideal) x0 x1 x2 x3 x4 = y
  rfl

-- The last stage (the [256,1] result read as [256]) is the network of the seven arguments.
theorem stage_eq_net : val_main_v43 (F := Ideal) x0 x1 x2 x3 x4 x5 x6 = Tropical.net x0 x1 x2 x3 x4 x5 x6 := by
  funext j
  obtain ⟨r, rfl⟩ : ∃ r : Fin 256, j = ix1 r := ⟨j 0, eq_ix1 j⟩
  have hi : idx_main_v43 (ix1 r) = ix2 r (0 : Fin 1) := Shape.idx_ext₂ (Nat.div_one r.val) rfl
  rw [val_main_v43_apply, hi, layer4, layer3, layer2, layer1]
  rfl

end Layers

def netOf (m : (ℓ : Loc nD τ sig) → Buf (Elt Ideal) ℓ) (c : Dev nD) : Buf (Elt Ideal) ((c.tc : Thread nD τ).loc main_v43) :=
  Tropical.net (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

-- The reference's run: it terminates, its result array holds the network of its arguments, and the arguments keep their initial contents.
theorem ref_run [Cert.ReferenceIdeal.Facts] (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v43) = netOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.ReferenceIdeal.defs (F := Ideal)) _ _).mono (fun _ h c => ⟨(h c).1.trans
      ((Cert.ReferenceIdeal.Read.val_main_v43_eq _ _ _ _ _ _ _).trans (stage_eq_net _ _ _ _ _ _ _)), (h c).2⟩)
    (Cert.ReferenceIdeal.Value.run (F := Ideal) m ρ)

end Cert.ReferenceIdeal.RefValue

end
-- ==== Proof.lean ====
/-
  A four-layer max-plus network, out[r,o] = max_i (w[o,i] * x[r,i]) + b[o] per layer. The kernel folds each maximum
  block by block over the contraction axis from minus infinity; the reference takes it at once. Max is associative,
  commutative and idempotent, so the two agree on the extended reals, finite inputs or not.
-/
import proofs.«139585_j60120952209906_1_alg».proof.Defs
import proofs.«139585_j60120952209906_1_alg».proof.Proof.Gen.Kernel
import proofs.«139585_j60120952209906_1_alg».proof.Proof.Gen.KernelIdeal
import proofs.«139585_j60120952209906_1_alg».proof.Proof.Gen.ReferenceIdeal
import proofs.«139585_j60120952209906_1_alg».proof.Proof.Gen.Pre_finite_inputs
import proofs.«139585_j60120952209906_1_alg».proof.Proof.K.Regs
import proofs.«139585_j60120952209906_1_alg».proof.Proof.KI.Regs
import proofs.«139585_j60120952209906_1_alg».proof.Proof.KI.RunAll
import proofs.«139585_j60120952209906_1_alg».proof.Proof.KI.NetValue
import proofs.«139585_j60120952209906_1_alg».proof.Proof.RefValue

noncomputable section

namespace Cert.Proof

open Idealize.ShloMosaic Idealize.ShloMosaic.TcCoe Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.ref_run m ρ)

/-- An unscoped TensorCore buffer is among those the run's last state names. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- Both programs end with the network of the agreeing arguments in their result arrays. -/
theorem algebraic : Cert.algebraic_KernelIdeal_ReferenceIdeal := by
  intro m ρ m' ρ' _ hagree
  refine ⟨fun c => Cert.KernelIdeal.Gen.V9 m (Cert.KernelIdeal.Hand.outs m) c Cert.KernelIdeal.main_v16, ?_, ?_⟩
  · refine (θ_run Cert.KernelIdeal.defs _ _).mono (fun r h c => ?_) (Cert.KernelIdeal.Hand.run_all (F := Ideal) m ρ)
    have hc := h c
    exact ⟨hc _ (mem_uc Cert.KernelIdeal.main_v16 (by decide)),
      (hc _ (mem_uc Cert.KernelIdeal.main_arg0 (by decide))).trans (Cert.KernelIdeal.Gen.V9_main_arg0 m _ c),
      (hc _ (mem_uc Cert.KernelIdeal.main_arg1 (by decide))).trans (Cert.KernelIdeal.Gen.V9_main_arg1 m _ c),
      (hc _ (mem_uc Cert.KernelIdeal.main_arg2 (by decide))).trans (Cert.KernelIdeal.Gen.V9_main_arg2 m _ c),
      (hc _ (mem_uc Cert.KernelIdeal.main_arg3 (by decide))).trans (Cert.KernelIdeal.Gen.V9_main_arg3 m _ c),
      (hc _ (mem_uc Cert.KernelIdeal.main_arg4 (by decide))).trans (Cert.KernelIdeal.Gen.V9_main_arg4 m _ c),
      (hc _ (mem_uc Cert.KernelIdeal.main_arg5 (by decide))).trans (Cert.KernelIdeal.Gen.V9_main_arg5 m _ c),
      (hc _ (mem_uc Cert.KernelIdeal.main_arg6 (by decide))).trans (Cert.KernelIdeal.Gen.V9_main_arg6 m _ c)⟩
  · refine (θ_run Cert.ReferenceIdeal.defs _ _).mono (fun r h c => ⟨(h c).1.trans ?_, (h c).2⟩)
      (Cert.ReferenceIdeal.RefValue.ref_run m' ρ')
    refine Eq.trans ?_ (Cert.KernelIdeal.Hand.net_value m c).symm
    unfold Cert.ReferenceIdeal.RefValue.netOf
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
